-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x12 : Shape := ⟨2, ![256, 12]⟩
abbrev S12 : Shape := ⟨1, ![12]⟩
abbrev S_ : Shape := ⟨0, ![]⟩
abbrev S1x400000 : Shape := ⟨2, ![1, 400000]⟩
abbrev S400000 : Shape := ⟨1, ![400000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x12 : S_.BroadcastsInDim S256x12 (![] : Fin 0 → Fin S256x12.rank)
  reducesTo_S256x12_S_d0_1 : S256x12.ReducesTo [0, 1] S_
  bcast_S_S12 : S_.BroadcastsInDim S12 (![] : Fin 0 → Fin S12.rank)
  reducesTo_S12_S_d0 : S12.ReducesTo [0] S_
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  reducesTo_S400000_S_d0 : S400000.ReducesTo [0] S_

variable [Facts]

def fn_part3 {F : FTy → Type} [FloatOps F] (main_v43 : IVec S_ 1) (main_v47 : IVec S400000 1) (main_v51 : IVec S400000 1) : IVec S_ 1 :=
  let main_v52 : IVec S400000 1 := andi main_v47 main_v51
  let main_c_18 : IVec S_ 1 := constantI S_ 1 1#1
  let main_v53 : IVec S_ 1 := (fun x v => Host.reduce IntOp.andi x v reducesTo_S400000_S_d0 h_S_) main_v52 main_c_18
  let main_v54 : IVec S_ 1 := andi main_v43 main_v53
  main_v54

def fn_part2 {F : FTy → Type} [FloatOps F] (main_arg1 : IVec S2x400000 32) (main_arg9 : FVec F S256x12 .f32) (main_arg10 : FVec F S12 .f32) (main_v33 : IVec S_ 1) : IVec S_ 1 :=
  let main_v34 : FVec F S256x12 .f32 := Host.absf main_arg9
  let main_cst_12 : FVec F S_ .f32 := constant S_ .f32 0x7F800000#32
  let main_v35 : FVec F S256x12 .f32 := broadcastInDim S256x12 ![] bcast_S_S256x12 main_cst_12
  let main_v36 : IVec S256x12 1 := cmpf .olt main_v34 main_v35
  let main_c_13 : IVec S_ 1 := constantI S_ 1 1#1
  let main_v37 : IVec S_ 1 := (fun x v => Host.reduce IntOp.andi x v reducesTo_S256x12_S_d0_1 h_S_) main_v36 main_c_13
  let main_v38 : IVec S_ 1 := andi main_v33 main_v37
  let main_v39 : FVec F S12 .f32 := Host.absf main_arg10
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  let main_v44 : IVec S1x400000 32 := (extractStridedSlice S1x400000 ![0, 0] · slices_S2x400000_S1x400000_0_0) main_arg1
  let main_v45 : IVec S400000 32 := shapeCast S400000 main_v44 shapeCasts_S1x400000_S400000
  let main_c_16 : IVec S_ 32 := constantI S_ 32 0#32
  let main_v46 : IVec S400000 32 := broadcastInDim S400000 ![] bcast_S_S400000 main_c_16
  let main_v47 : IVec S400000 1 := cmpi .sge main_v45 main_v46
  let main_v48 : IVec S1x400000 32 := (extractStridedSlice S1x400000 ![0, 0] · slices_S2x400000_S1x400000_0_0) main_arg1
  let main_v49 : IVec S400000 32 := shapeCast S400000 main_v48 shapeCasts_S1x400000_S400000
  let main_c_17 : IVec S_ 32 := constantI S_ 32 100000#32
  let main_v50 : IVec S400000 32 := broadcastInDim S400000 ![] bcast_S_S400000 main_c_17
  let main_v51 : IVec S400000 1 := cmpi .slt main_v49 main_v50
  fn_part3 (F := F) main_v43 main_v47 main_v51

def fn_part1 {F : FTy → Type} [FloatOps F] (main_arg1 : IVec S2x400000 32) (main_arg6 : FVec F S256x256 .f32) (main_arg7 : FVec F S256 .f32) (main_arg8 : FVec F S256x256 .f32) (main_arg9 : FVec F S256x12 .f32) (main_arg10 : FVec F S12 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg9 main_arg10 main_v33

def fn {F : FTy → Type} [FloatOps F] (main_arg0 : FVec F S100000x128 .f32) (main_arg1 : IVec S2x400000 32) (main_arg2 : IVec S100000 32) (main_arg3 : FVec F S128x256 .f32) (main_arg4 : FVec F S256 .f32) (main_arg5 : FVec F S128x256 .f32) (main_arg6 : FVec F S256x256 .f32) (main_arg7 : FVec F S256 .f32) (main_arg8 : FVec F S256x256 .f32) (main_arg9 : FVec F S256x12 .f32) (main_arg10 : FVec F S12 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg6 main_arg7 main_arg8 main_arg9 main_arg10 main_v13 main_v16
-- ==== Kernel.lean ====
abbrev S100000x128 : Shape := ⟨2, ![100000, 128]⟩
abbrev S2x400000 : Shape := ⟨2, ![2, 400000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x12 : Shape := ⟨2, ![256, 12]⟩
abbrev S12 : Shape := ⟨1, ![12]⟩
abbrev S1x400000 : Shape := ⟨2, ![1, 400000]⟩
abbrev S400000 : Shape := ⟨1, ![400000]⟩
abbrev S400000x1 : Shape := ⟨2, ![400000, 1]⟩
abbrev S100000x1 : Shape := ⟨2, ![100000, 1]⟩
abbrev S400000x128 : Shape := ⟨2, ![400000, 128]⟩
abbrev S2000x1 : Shape := ⟨2, ![2000, 1]⟩
abbrev S2000x128 : Shape := ⟨2, ![2000, 128]⟩
abbrev S2000x2000 : Shape := ⟨2, ![2000, 2000]⟩
abbrev S_ : Shape := ⟨0, ![]⟩
abbrev S100000x256 : Shape := ⟨2, ![100000, 256]⟩
abbrev S2000x256 : Shape := ⟨2, ![2000, 256]⟩
abbrev S1x256 : Shape := ⟨2, ![1, 256]⟩
abbrev S400000x256 : Shape := ⟨2, ![400000, 256]⟩
abbrev S2000x12 : Shape := ⟨2, ![2000, 12]⟩
abbrev S1x12 : Shape := ⟨2, ![1, 12]⟩

abbrev nBuf : Space → Nat
  | .hbm => 56
  | .vmem => 54
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S100000, .i32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x12, .f32⟩
  | .hbm, ⟨10, _⟩ => ⟨S12, .f32⟩
  | .hbm, ⟨11, _⟩ => ⟨S1x400000, .i32⟩
  | .hbm, ⟨12, _⟩ => ⟨S400000, .i32⟩
  | .hbm, ⟨13, _⟩ => ⟨S400000x1, .i32⟩
  | .hbm, ⟨14, _⟩ => ⟨S1x400000, .i32⟩
  | .hbm, ⟨15, _⟩ => ⟨S400000, .i32⟩
  | .hbm, ⟨16, _⟩ => ⟨S400000x1, .i32⟩
  | .hbm, ⟨17, _⟩ => ⟨S100000x1, .i32⟩
  | .hbm, ⟨18, _⟩ => ⟨S128x256, .bf16⟩
  | .hbm, ⟨19, _⟩ => ⟨S128x256, .bf16⟩
  | .hbm, ⟨20, _⟩ => ⟨S256x256, .bf16⟩
  | .hbm, ⟨21, _⟩ => ⟨S256x256, .bf16⟩
  | .hbm, ⟨22, _⟩ => ⟨S256x12, .bf16⟩
  | .hbm, ⟨23, _⟩ => ⟨S100000x128, .bf16⟩
  | .hbm, ⟨24, _⟩ => ⟨S400000x128, .bf16⟩
  | .hbm, ⟨25, _⟩ => ⟨S100000x128, .f32⟩
  | .hbm, ⟨26, _⟩ => ⟨S_, .f32⟩
  | .hbm, ⟨27, _⟩ => ⟨S400000x1, .f32⟩
  | .hbm, ⟨28, _⟩ => ⟨S400000, .i32⟩
  | .hbm, ⟨29, _⟩ => ⟨S_, .f32⟩
  | .hbm, ⟨30, _⟩ => ⟨S100000x1, .f32⟩
  | .hbm, ⟨31, _⟩ => ⟨S400000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x256, .f32⟩
  | .hbm, ⟨39, _⟩ => ⟨S100000x256, .bf16⟩
  | .hbm, ⟨40, _⟩ => ⟨S400000x256, .bf16⟩
  | .hbm, ⟨41, _⟩ => ⟨S100000x256, .f32⟩
  | .hbm, ⟨42, _⟩ => ⟨S_, .f32⟩
  | .hbm, ⟨43, _⟩ => ⟨S400000x1, .f32⟩
  | .hbm, ⟨44, _⟩ => ⟨S400000, .i32⟩
  | .hbm, ⟨45, _⟩ => ⟨S_, .f32⟩
  | .hbm, ⟨46, _⟩ => ⟨S100000x1, .f32⟩
  | .hbm, ⟨47, _⟩ => ⟨S400000x1, .i32⟩
  | .hbm, ⟨48, _⟩ => ⟨S100000x1, .f32⟩
  | .hbm, ⟨49, _⟩ => ⟨S_, .f32⟩
  | .hbm, ⟨50, _⟩ => ⟨S100000x1, .f32⟩
  | .hbm, ⟨51, _⟩ => ⟨S100000x1, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S2000x12, .f32⟩
  | .local _ .vmem, ⟨0, _⟩ => ⟨S2000x1, .i32⟩
  | .local _ .vmem, ⟨1, _⟩ => ⟨S2000x1, .i32⟩
  | .local _ .vmem, ⟨2, _⟩ => ⟨S2000x128, .bf16⟩
  | .local _ .vmem, ⟨3, _⟩ => ⟨S2000x128, .bf16⟩
  | .local _ .vmem, ⟨4, _⟩ => ⟨S2000x128, .bf16⟩
  | .local _ .vmem, ⟨5, _⟩ => ⟨S2000x128, .bf16⟩
  | .local _ .vmem, ⟨6, _⟩ => ⟨S2000x128, .f32⟩
  | .local _ .vmem, ⟨7, _⟩ => ⟨S2000x1, .i32⟩
  | .local _ .vmem, ⟨8, _⟩ => ⟨S2000x1, .i32⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x256, .bf16⟩
  | .local _ .vmem, ⟨19, _⟩ => ⟨S256, .f32⟩
  | .local _ .vmem, ⟨20, _⟩ => ⟨S128x256, .bf16⟩
  | .local _ .vmem, ⟨21, _⟩ => ⟨S2000x256, .f32⟩
  | .local _ .vmem, ⟨22, _⟩ => ⟨S2000x256, .f32⟩
  | .local _ .vmem, ⟨23, _⟩ => ⟨S2000x1, .i32⟩
  | .local _ .vmem, ⟨24, _⟩ => ⟨S2000x1, .i32⟩
  | .local _ .vmem, ⟨25, _⟩ => ⟨S2000x256, .bf16⟩
  | .local _ .vmem, ⟨26, _⟩ => ⟨S2000x256, .bf16⟩
  | .local _ .vmem, ⟨27, _⟩ => ⟨S2000x256, .bf16⟩
  | .local _ .vmem, ⟨28, _⟩ => ⟨S2000x256, .bf16⟩
  | .local _ .vmem, ⟨29, _⟩ => ⟨S2000x256, .f32⟩
  | .local _ .vmem, ⟨30, _⟩ => ⟨S2000x1, .i32⟩
  | .local _ .vmem, ⟨31, _⟩ => ⟨S2000x1, .i32⟩
  | .local _ .vmem, ⟨32, _⟩ => ⟨S2000x256, .bf16⟩
  | .local _ .vmem, ⟨33, _⟩ => ⟨S2000x256, .bf16⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S256x256, .bf16⟩
  | .local _ .vmem, ⟨42, _⟩ => ⟨S256, .f32⟩
  | .local _ .vmem, ⟨43, _⟩ => ⟨S256x256, .bf16⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x1, .i32⟩
  | .local _ .vmem, ⟨49, _⟩ => ⟨S2000x1, .i32⟩
  | .local _ .vmem, ⟨50, _⟩ => ⟨S256x12, .bf16⟩
  | .local _ .vmem, ⟨51, _⟩ => ⟨S12, .f32⟩
  | .local _ .vmem, ⟨52, _⟩ => ⟨S2000x12, .f32⟩
  | .local _ .vmem, ⟨53, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48

abbrev nD : Nat := 1
abbrev τ : Topo := Topo.v7x

variable {F : FTy → Type} [FloatOps F]

abbrev grid0 : Pipeline.Grid := ⟨2, ![200, 50], ![false, false]⟩

def k0_cond2 (i : grid0.Coords) : BitVec 1 :=
  let arg1 : BitVec 32 := BitVec.ofNat 32 (i 1).val
  let c49_i32 : BitVec 32 := 49#32
  let v22 : BitVec 1 := Scalar.cmpi .eq arg1 c49_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![50, 200], ![false, false]⟩

def k1_cond2 (i : grid1.Coords) : BitVec 1 :=
  let arg1 : BitVec 32 := BitVec.ofNat 32 (i 1).val
  let c199_i32 : BitVec 32 := 199#32
  let v22 : BitVec 1 := Scalar.cmpi .eq arg1 c199_i32
  let v23 : BitVec 32 := Scalar.extui v22
  let c0_i32_8 : BitVec 32 := 0#32
  let v24 : BitVec 1 := Scalar.cmpi .ne v23 c0_i32_8
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![200, 50], ![false, false]⟩

def k3_cond2 (i : grid3.Coords) : BitVec 1 :=
  let arg1 : BitVec 32 := BitVec.ofNat 32 (i 1).val
  let c49_i32 : BitVec 32 := 49#32
  let v22 : BitVec 1 := Scalar.cmpi .eq arg1 c49_i32
  let v23 : BitVec 32 := Scalar.extui v22
  let c0_i32_8 : BitVec 32 := 0#32
  let v24 : BitVec 1 := Scalar.cmpi .ne v23 c0_i32_8
  v24

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2000x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![50, 200], ![false, false]⟩

def k4_cond2 (i : grid4.Coords) : BitVec 1 :=
  let arg1 : BitVec 32 := BitVec.ofNat 32 (i 1).val
  let c199_i32 : BitVec 32 := 199#32
  let v22 : BitVec 1 := Scalar.cmpi .eq arg1 c199_i32
  let v23 : BitVec 32 := Scalar.extui v22
  let c0_i32_8 : BitVec 32 := 0#32
  let v24 : BitVec 1 := Scalar.cmpi .ne v23 c0_i32_8
  v24

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2000x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def k6_cond2 (i : grid6.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x12 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S12 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S2000x12 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x400000_S1x400000_0_0 : S2x400000.Slices ![0, 0] S1x400000
  shapeCasts_S1x400000_S400000 : S1x400000.ShapeCasts S400000
  shapeCasts_S400000_S400000x1 : S400000.ShapeCasts S400000x1
  slices_S2x400000_S1x400000_1_0 : S2x400000.Slices ![1, 0] S1x400000
  shapeCasts_S100000_S100000x1 : S100000.ShapeCasts S100000x1
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x2000_d1_w32 : S2000x2000.Iotas .tc 32 [1]
  broadcasts_S2000x1_S2000x2000 : S2000x1.Broadcasts S2000x2000
  natLt_1_32 : 1 < 32
  packedbf16_S2000x128_S2000x128_0_0 : (Rect.unit (s := S2000x128) ![0, 0] S2000x128.size inb_S2000x128_S2000x128_0_0).PackedRows (EltTy.packing .bf16)
  bcast_S_S400000x1 : S_.BroadcastsInDim S400000x1 (![] : Fin 0 → Fin S400000x1.rank)
  shapeCasts_S400000x1_S400000 : S400000x1.ShapeCasts S400000
  bcast_S_S100000x1 : S_.BroadcastsInDim S100000x1 (![] : Fin 0 → Fin S100000x1.rank)
  bcast_S400000_S400000x1_0 : S400000.BroadcastsInDim S400000x1 (![0] : Fin 1 → Fin S400000x1.rank)
  bcast_S100000x1_S100000x128_0_1 : S100000x1.BroadcastsInDim S100000x128 (![0, 1] : Fin 2 → Fin S100000x128.rank)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  packedbf16_S2000x256_S2000x256_0_0 : (Rect.unit (s := S2000x256) ![0, 0] S2000x256.size inb_S2000x256_S2000x256_0_0).PackedRows (EltTy.packing .bf16)
  bcast_S100000x1_S100000x256_0_1 : S100000x1.BroadcastsInDim S100000x256 (![0, 1] : Fin 2 → Fin S100000x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x12_S256x12_0_0 : ∀ a, (![0, 0] : Fin 2 → Nat) a + S256x12.size a ≤ S256x12.size a
  h_S256x12 : 0 < S256x12.numel
  shapeCasts_S256x12_S256x12 : S256x12.ShapeCasts S256x12
  inb_S12_S12_0 : ∀ a, (![0] : Fin 1 → Nat) a + S12.size a ≤ S12.size a
  h_S12 : 0 < S12.numel
  shapeCasts_S12_S1x12 : S12.ShapeCasts S1x12
  broadcasts_S1x12_S2000x12 : S1x12.Broadcasts S2000x12
  inb_S2000x12_S2000x12_0_0 : ∀ a, (![0, 0] : Fin 2 → Nat) a + S2000x12.size a ≤ S2000x12.size a
  h_S2000x12 : 0 < S2000x12.numel
  dot_S2000x2000_S2000x128_S2000x128_1_0_0_1_n_n_wf : DotDims.WF S2000x2000 S2000x128 S2000x128 [1] [0] [0] [1] [] []
  dot_S2000x2000_S2000x128_S2000x128_0_0_1_1_n_n_wf : DotDims.WF S2000x2000 S2000x128 S2000x128 [0] [0] [1] [1] [] []
  scatter_S100000x1_S400000x1_S400000x1_1_0_0_1_wf : ScatterDims.WF S100000x1 S400000x1 S400000x1 [1] [0] [0] 1
  dot_S2000x128_S128x256_S2000x256_1_0_0_1_n_n_wf : DotDims.WF S2000x128 S128x256 S2000x256 [1] [0] [0] [1] [] []
  dot_S2000x2000_S2000x256_S2000x256_1_0_0_1_n_n_wf : DotDims.WF S2000x2000 S2000x256 S2000x256 [1] [0] [0] [1] [] []
  dot_S2000x2000_S2000x256_S2000x256_0_0_1_1_n_n_wf : DotDims.WF S2000x2000 S2000x256 S2000x256 [0] [0] [1] [1] [] []
  dot_S2000x256_S256x256_S2000x256_1_0_0_1_n_n_wf : DotDims.WF S2000x256 S256x256 S2000x256 [1] [0] [0] [1] [] []
  dot_S2000x256_S256x12_S2000x12_1_0_0_1_n_n_wf : DotDims.WF S2000x256 S256x12 S2000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S400000x1.size a
  hwx0_0 : ∀ i : grid0.Coords, EltTy.bits .i32 = 32 ∨ (Rect.block (s := S400000x1) S2000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .bf16 = 32 ∨ (Rect.block (s := S100000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S400000x128.size a
  hwx0_2 : ∀ i : grid0.Coords, EltTy.bits .bf16 = 32 ∨ (Rect.block (s := S400000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S400000x1.size a
  hwx1_0 : ∀ i : grid1.Coords, EltTy.bits .i32 = 32 ∨ (Rect.block (s := S400000x1) S2000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S400000x128.size a
  hwx1_1 : ∀ i : grid1.Coords, EltTy.bits .bf16 = 32 ∨ (Rect.block (s := S400000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .bf16 = 32 ∨ (Rect.block (s := S128x256) S128x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .bf16 = 32 ∨ (Rect.block (s := S128x256) S128x256.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S100000x256.size a
  hwx2_5 : ∀ i : grid2.Coords, EltTy.bits .f32 = 32 ∨ (Rect.block (s := S100000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1.size a ≤ S400000x1.size a
  hwx3_0 : ∀ i : grid3.Coords, EltTy.bits .i32 = 32 ∨ (Rect.block (s := S400000x1) S2000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .bf16 = 32 ∨ (Rect.block (s := S100000x256) S2000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S400000x256.size a
  hwx3_2 : ∀ i : grid3.Coords, EltTy.bits .bf16 = 32 ∨ (Rect.block (s := S400000x256) S2000x256.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S400000x1.size a
  hwx4_0 : ∀ i : grid4.Coords, EltTy.bits .i32 = 32 ∨ (Rect.block (s := S400000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S400000x256.size a
  hwx4_1 : ∀ i : grid4.Coords, EltTy.bits .bf16 = 32 ∨ (Rect.block (s := S400000x256) S2000x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S100000x256.size a
  hwx5_1 : ∀ i : grid5.Coords, EltTy.bits .f32 = 32 ∨ (Rect.block (s := S100000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .bf16 = 32 ∨ (Rect.block (s := S256x256) S256x256.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256.size a ≤ S256.size a
  hwx5_3 : ∀ i : grid5.Coords, EltTy.bits .f32 = 32 ∨ (Rect.block (s := S256) S256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .bf16 = 32 ∨ (Rect.block (s := S256x256) S256x256.size (cc5_transform_4 i) (hinb5_4 i)).WholeWords (EltTy.packing .bf16)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S100000x256.size a
  hwx5_5 : ∀ i : grid5.Coords, EltTy.bits .f32 = 32 ∨ (Rect.block (s := S100000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S100000x256.size a
  hwx6_0 : ∀ i : grid6.Coords, EltTy.bits .f32 = 32 ∨ (Rect.block (s := S100000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x12.size a ≤ S256x12.size a
  hwx6_2 : ∀ i : grid6.Coords, EltTy.bits .bf16 = 32 ∨ (Rect.block (s := S256x12) S256x12.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S12.size a ≤ S12.size a
  hwx6_3 : ∀ i : grid6.Coords, EltTy.bits .f32 = 32 ∨ (Rect.block (s := S12) S12.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S2000x12.size a ≤ S2000x12.size a
  hwx6_4 : ∀ i : grid6.Coords, EltTy.bits .f32 = 32 ∨ (Rect.block (s := S2000x12) S2000x12.size (cc6_transform_4 i) (hinb6_4 i)).WholeWords (EltTy.packing .f32)

variable [Facts₀]

def dot_S2000x2000_S2000x128_S2000x128_1_0_0_1_n_n : DotDims S2000x2000 S2000x128 S2000x128 where
  lhsContracting := [1]
  rhsContracting := [0]
  lhsNonContracting := [0]
  rhsNonContracting := [1]
  lhsBatch := []
  rhsBatch := []
  wf := dot_S2000x2000_S2000x128_S2000x128_1_0_0_1_n_n_wf
def dot_S2000x2000_S2000x128_S2000x128_0_0_1_1_n_n : DotDims S2000x2000 S2000x128 S2000x128 where
  lhsContracting := [0]
  rhsContracting := [0]
  lhsNonContracting := [1]
  rhsNonContracting := [1]
  lhsBatch := []
  rhsBatch := []
  wf := dot_S2000x2000_S2000x128_S2000x128_0_0_1_1_n_n_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x2000_S2000x256_S2000x256_1_0_0_1_n_n : DotDims S2000x2000 S2000x256 S2000x256 where
  lhsContracting := [1]
  rhsContracting := [0]
  lhsNonContracting := [0]
  rhsNonContracting := [1]
  lhsBatch := []
  rhsBatch := []
  wf := dot_S2000x2000_S2000x256_S2000x256_1_0_0_1_n_n_wf
def dot_S2000x2000_S2000x256_S2000x256_0_0_1_1_n_n : DotDims S2000x2000 S2000x256 S2000x256 where
  lhsContracting := [0]
  rhsContracting := [0]
  lhsNonContracting := [1]
  rhsNonContracting := [1]
  lhsBatch := []
  rhsBatch := []
  wf := dot_S2000x2000_S2000x256_S2000x256_0_0_1_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x12_S2000x12_1_0_0_1_n_n : DotDims S2000x256 S256x12 S2000x12 where
  lhsContracting := [1]
  rhsContracting := [0]
  lhsNonContracting := [0]
  rhsNonContracting := [1]
  lhsBatch := []
  rhsBatch := []
  wf := dot_S2000x256_S256x12_S2000x12_1_0_0_1_n_n_wf

abbrev win0_0 : Pipeline.Window sig grid0 :=
  Pipeline.Window.ofSpec (Memref.whole main_v2) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v5) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v23) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v2) S2000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v5) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v36) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v10) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v37) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v37) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v11) S256x12.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S12.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v38) S2000x12.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x400000 : Shape := ⟨2, ![2, 400000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x12 : Shape := ⟨2, ![256, 12]⟩
abbrev S12 : Shape := ⟨1, ![12]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S100000x1 : Shape := ⟨2, ![100000, 1]⟩
abbrev S100000x256 : Shape := ⟨2, ![100000, 256]⟩
abbrev S1x256 : Shape := ⟨2, ![1, 256]⟩
abbrev S400000x256 : Shape := ⟨2, ![400000, 256]⟩
abbrev S2000x256 : Shape := ⟨2, ![2000, 256]⟩
abbrev S2000x12 : Shape := ⟨2, ![2000, 12]⟩
abbrev S1x12 : Shape := ⟨2, ![1, 12]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S100000, .i32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x12, .f32⟩
  | .hbm, ⟨10, _⟩ => ⟨S12, .f32⟩
  | .hbm, ⟨11, _⟩ => ⟨S1x400000, .i32⟩
  | .hbm, ⟨12, _⟩ => ⟨S400000, .i32⟩
  | .hbm, ⟨13, _⟩ => ⟨S1x400000, .i32⟩
  | .hbm, ⟨14, _⟩ => ⟨S400000, .i32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .f32⟩
  | .hbm, ⟨24, _⟩ => ⟨S_, .f32⟩
  | .hbm, ⟨25, _⟩ => ⟨S100000x128, .f32⟩
  | .hbm, ⟨26, _⟩ => ⟨S400000x1, .i32⟩
  | .hbm, ⟨27, _⟩ => ⟨S100000x128, .f32⟩
  | .hbm, ⟨28, _⟩ => ⟨S_, .f32⟩
  | .hbm, ⟨29, _⟩ => ⟨S400000x1, .f32⟩
  | .hbm, ⟨30, _⟩ => ⟨S_, .f32⟩
  | .hbm, ⟨31, _⟩ => ⟨S100000x1, .f32⟩
  | .hbm, ⟨32, _⟩ => ⟨S400000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x256, .f32⟩
  | .hbm, ⟨40, _⟩ => ⟨S1x256, .f32⟩
  | .hbm, ⟨41, _⟩ => ⟨S100000x256, .f32⟩
  | .hbm, ⟨42, _⟩ => ⟨S100000x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000x256, .f32⟩
  | .hbm, ⟨47, _⟩ => ⟨S100000x256, .f32⟩
  | .hbm, ⟨48, _⟩ => ⟨S_, .i32⟩
  | .hbm, ⟨49, _⟩ => ⟨S400000, .i32⟩
  | .hbm, ⟨50, _⟩ => ⟨S400000, .i1⟩
  | .hbm, ⟨51, _⟩ => ⟨S_, .i32⟩
  | .hbm, ⟨52, _⟩ => ⟨S400000, .i32⟩
  | .hbm, ⟨53, _⟩ => ⟨S400000, .i32⟩
  | .hbm, ⟨54, _⟩ => ⟨S400000, .i32⟩
  | .hbm, ⟨55, _⟩ => ⟨S400000x1, .i32⟩
  | .hbm, ⟨56, _⟩ => ⟨S400000x256, .f32⟩
  | .hbm, ⟨57, _⟩ => ⟨S_, .f32⟩
  | .hbm, ⟨58, _⟩ => ⟨S100000x256, .f32⟩
  | .hbm, ⟨59, _⟩ => ⟨S400000x1, .i32⟩
  | .hbm, ⟨60, _⟩ => ⟨S100000x256, .f32⟩
  | .hbm, ⟨61, _⟩ => ⟨S_, .f32⟩
  | .hbm, ⟨62, _⟩ => ⟨S400000x1, .f32⟩
  | .hbm, ⟨63, _⟩ => ⟨S_, .f32⟩
  | .hbm, ⟨64, _⟩ => ⟨S100000x1, .f32⟩
  | .hbm, ⟨65, _⟩ => ⟨S400000x1, .i32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x256, .f32⟩
  | .hbm, ⟨71, _⟩ => ⟨S100000x256, .f32⟩
  | .hbm, ⟨72, _⟩ => ⟨S100000x256, .f32⟩
  | .hbm, ⟨73, _⟩ => ⟨S1x256, .f32⟩
  | .hbm, ⟨74, _⟩ => ⟨S100000x256, .f32⟩
  | .hbm, ⟨75, _⟩ => ⟨S100000x256, .f32⟩
  | .hbm, ⟨76, _⟩ => ⟨S100000x256, .f32⟩
  | .hbm, ⟨77, _⟩ => ⟨S100000x256, .f32⟩
  | .hbm, ⟨78, _⟩ => ⟨S_, .f32⟩
  | .hbm, ⟨79, _⟩ => ⟨S100000x256, .f32⟩
  | .hbm, ⟨80, _⟩ => ⟨S100000x256, .f32⟩
  | .hbm, ⟨81, _⟩ => ⟨S_, .f32⟩
  | .hbm, ⟨82, _⟩ => ⟨S2000x256, .f32⟩
  | .hbm, ⟨83, _⟩ => ⟨S100000x1, .i32⟩
  | .hbm, ⟨84, _⟩ => ⟨S2000x256, .f32⟩
  | .hbm, ⟨85, _⟩ => ⟨S2000x12, .f32⟩
  | .hbm, ⟨86, _⟩ => ⟨S1x12, .f32⟩
  | .hbm, ⟨87, _⟩ => ⟨S2000x12, .f32⟩
  | .hbm, ⟨88, _⟩ => ⟨S2000x12, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  bcast_S_S400000x1 : S_.BroadcastsInDim S400000x1 (![] : Fin 0 → Fin S400000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S_S2000x256 : S_.BroadcastsInDim S2000x256 (![] : Fin 0 → Fin S2000x256.rank)
  bcast_S100000_S100000x1_0 : S100000.BroadcastsInDim S100000x1 (![0] : Fin 1 → Fin S100000x1.rank)
  bcast_S12_S1x12_1 : S12.BroadcastsInDim S1x12 (![1] : Fin 1 → Fin S1x12.rank)
  bcast_S1x12_S2000x12_0_1 : S1x12.BroadcastsInDim S2000x12 (![0, 1] : Fin 2 → Fin S2000x12.rank)
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S100000x1_S400000x1_S400000x1_1_0_0_1_wf : ScatterDims.WF S100000x1 S400000x1 S400000x1 [1] [0] [0] 1
  dot_S100000x128_S128x256_S100000x256_1_0_0_1_n_n_wf : DotDims.WF S100000x128 S128x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x256_S100000x256_1_0_0_1_n_n_wf : DotDims.WF S100000x256 S256x256 S100000x256 [1] [0] [0] [1] [] []
  scatter_S2000x256_S100000x1_S100000x256_1_0_0_1_wf : ScatterDims.WF S2000x256 S100000x1 S100000x256 [1] [0] [0] 1
  dot_S2000x256_S256x12_S2000x12_1_0_0_1_n_n_wf : DotDims.WF S2000x256 S256x12 S2000x12 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S2000x256_S100000x1_S100000x256_1_0_0_1 : ScatterDims S2000x256 S100000x1 S100000x256 where
  updateWindowDims := [1]
  insertedWindowDims := [0]
  scatterDimsToOperandDims := [0]
  indexVectorDim := 1
  wf := scatter_S2000x256_S100000x1_S100000x256_1_0_0_1_wf
def dot_S2000x256_S256x12_S2000x12_1_0_0_1_n_n : DotDims S2000x256 S256x12 S2000x12 where
  lhsContracting := [1]
  rhsContracting := [0]
  lhsNonContracting := [0]
  rhsNonContracting := [1]
  lhsBatch := []
  rhsBatch := []
  wf := dot_S2000x256_S256x12_S2000x12_1_0_0_1_n_n_wf

class Facts : Prop extends Facts₀ where

variable [Facts]
-- ==== Proof.SameProgram.lean ====
import proofs.«423955_j37598143709627_1_alg».proof.Kernel
import proofs.«423955_j37598143709627_1_alg».proof.KernelIdeal

noncomputable section

namespace Cert.SameProgram

open Idealize.ShloMosaic

variable {F : FTy → Type} [FloatOps F] [Cert.Kernel.Facts] [Cert.KernelIdeal.Facts]

set_option maxHeartbeats 4000000 in
/-- The idealized program is the word-level program's own text (its ledger of rewrites is empty), so the two tables of kernel functions agree label by label. -/
theorem defs₀_eq : Cert.Kernel.defs₀ (F := F) = Cert.KernelIdeal.defs₀ (F := F) := by
  unfold Cert.Kernel.defs₀ Cert.KernelIdeal.defs₀
  refine congrArg Defs.onTc (funext fun ℓ => funext fun a => ?_)
  fin_cases ℓ <;> rfl

set_option maxHeartbeats 1000000 in
/-- Hence the two programs have one table of definitions, -/
theorem defs_eq : Cert.Kernel.defs (F := F) = Cert.KernelIdeal.defs (F := F) :=
  congrArg (Pipeline.defs Cert.Kernel.pcfgs) defs₀_eq

set_option maxHeartbeats 2500000 in
/-- and one host program. -/
theorem main_eq : Cert.Kernel.main (F := F) = Cert.KernelIdeal.main (F := F) := rfl

end Cert.SameProgram

end
-- ==== Proof.KI.Defs0.lean ====
import proofs.«423955_j37598143709627_1_alg».proof.Proof.Gen.KernelIdeal.Launch
import proofs.«423955_j37598143709627_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Vec F S2000x128 .f32
  | 0, h => k0_pay2 (grid0.coords ⟨0, h⟩) (iblk0 V c 0 ⟨0, h⟩) (iblk0 V c 1 ⟨0, h⟩) (k0_pay1 (F := F))
  | n + 1, h => k0_pay2 (grid0.coords ⟨n + 1, h⟩) (iblk0 V c 0 ⟨n + 1, h⟩) (iblk0 V c 1 ⟨n + 1, h⟩)
      (if (n + 1) % 50 = 0 then k0_pay1 (F := F) else acc0 c n (Nat.lt_of_succ_lt h))

theorem acc0_zero (c : Dev nD) (h : 0 < cfg0.N) :
    acc0 V c 0 h = k0_pay2 (grid0.coords ⟨0, h⟩) (iblk0 V c 0 ⟨0, h⟩) (iblk0 V c 1 ⟨0, h⟩) (k0_pay1 (F := F)) := rfl

theorem acc0_succ (c : Dev nD) (n : ℕ) (h : n + 1 < cfg0.N) :
    acc0 V c (n + 1) h = k0_pay2 (grid0.coords ⟨n + 1, h⟩) (iblk0 V c 0 ⟨n + 1, h⟩) (iblk0 V c 1 ⟨n + 1, h⟩)
      (if (n + 1) % 50 = 0 then k0_pay1 (F := F) else acc0 V c n (Nat.lt_of_succ_lt h)) := rfl

abbrev scM0 : Memref sig .tc .vmem S2000x128 .f32 := Memref.whole cc0_scratch0

def PhiS0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

theorem PhiS0_zero (c : Dev nD) (h : 0 ≤ cfg0.N) : PhiS0 V c 0 h = Pipeline.ΦA spec0 c := rfl

theorem PhiS0_succ (c : Dev nD) (n : ℕ) (hn : n < cfg0.N) :
    PhiS0 V c (n + 1) hn = iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r)) := rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem Phi0_eq (c : Dev nD) (t : Fin (cfg0.N + 1)) : (dat0 V c).Φ t = PhiS0 V c t.val (Nat.le_of_lt_succ t.isLt) := by
  dsimp only [dat0]

end

end Cert.KernelIdeal.Hand

end
-- ==== Proof.KI.Defs1.lean ====
import proofs.«423955_j37598143709627_1_alg».proof.Proof.Gen.KernelIdeal.Launch
import proofs.«423955_j37598143709627_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S2000x128 .f32
  | 0, h => k1_pay2 (grid1.coords ⟨0, h⟩) (iblk1 V c 0 ⟨0, h⟩) (iblk1 V c 1 ⟨0, h⟩) (k1_pay1 (F := F))
  | n + 1, h => k1_pay2 (grid1.coords ⟨n + 1, h⟩) (iblk1 V c 0 ⟨n + 1, h⟩) (iblk1 V c 1 ⟨n + 1, h⟩)
      (if (n + 1) % 200 = 0 then k1_pay1 (F := F) else acc1 c n (Nat.lt_of_succ_lt h))

theorem acc1_zero (c : Dev nD) (h : 0 < cfg1.N) :
    acc1 V c 0 h = k1_pay2 (grid1.coords ⟨0, h⟩) (iblk1 V c 0 ⟨0, h⟩) (iblk1 V c 1 ⟨0, h⟩) (k1_pay1 (F := F)) := rfl

theorem acc1_succ (c : Dev nD) (n : ℕ) (h : n + 1 < cfg1.N) :
    acc1 V c (n + 1) h = k1_pay2 (grid1.coords ⟨n + 1, h⟩) (iblk1 V c 0 ⟨n + 1, h⟩) (iblk1 V c 1 ⟨n + 1, h⟩)
      (if (n + 1) % 200 = 0 then k1_pay1 (F := F) else acc1 V c n (Nat.lt_of_succ_lt h)) := rfl

abbrev scM1 : Memref sig .tc .vmem S2000x128 .f32 := Memref.whole cc1_scratch0

def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

theorem PhiS1_zero (c : Dev nD) (h : 0 ≤ cfg1.N) : PhiS1 V c 0 h = Pipeline.ΦA spec1 c := rfl

theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem Phi1_eq (c : Dev nD) (t : Fin (cfg1.N + 1)) : (dat1 V c).Φ t = PhiS1 V c t.val (Nat.le_of_lt_succ t.isLt) := by
  dsimp only [dat1]

end

end Cert.KernelIdeal.Hand

end
-- ==== Proof.KI.Defs2.lean ====
import proofs.«423955_j37598143709627_1_alg».proof.Proof.Gen.KernelIdeal.Launch
import proofs.«423955_j37598143709627_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = k2_pay1 (iblk2 V c 0 t) (iblk2 V c 1 t) (iblk2 V c 2 t) (iblk2 V c 3 t) (iblk2 V c 4 t) := by
  dsimp only [dat2]

end

end Cert.KernelIdeal.Hand

end
-- ==== Proof.KI.Defs6.lean ====
import proofs.«423955_j37598143709627_1_alg».proof.Proof.Gen.KernelIdeal.Launch
import proofs.«423955_j37598143709627_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) : (n : ℕ) → n < cfg6.N → Vec F S2000x256 .f32
  | 0, h => k6_pay2 (iblk6 V c 0 ⟨0, h⟩) (iblk6 V c 1 ⟨0, h⟩) (k6_pay1 (F := F))
  | n + 1, h => k6_pay2 (iblk6 V c 0 ⟨n + 1, h⟩) (iblk6 V c 1 ⟨n + 1, h⟩) (acc6 c n (Nat.lt_of_succ_lt h))

theorem acc6_zero (c : Dev nD) (h : 0 < cfg6.N) :
    acc6 V c 0 h = k6_pay2 (iblk6 V c 0 ⟨0, h⟩) (iblk6 V c 1 ⟨0, h⟩) (k6_pay1 (F := F)) := rfl

theorem acc6_succ (c : Dev nD) (n : ℕ) (h : n + 1 < cfg6.N) :
    acc6 V c (n + 1) h = k6_pay2 (iblk6 V c 0 ⟨n + 1, h⟩) (iblk6 V c 1 ⟨n + 1, h⟩) (acc6 V c n (Nat.lt_of_succ_lt h)) := rfl

abbrev scM6 : Memref sig .tc .vmem S2000x256 .f32 := Memref.whole cc6_scratch0

def PhiS6 (c : Dev nD) : (n : ℕ) → n ≤ cfg6.N → sProp 𝕄
  | 0, _ => Pipeline.ΦA spec6 c
  | n + 1, hn => iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r))

theorem PhiS6_zero (c : Dev nD) (h : 0 ≤ cfg6.N) : PhiS6 V c 0 h = Pipeline.ΦA spec6 c := rfl

theorem PhiS6_succ (c : Dev nD) (n : ℕ) (hn : n < cfg6.N) :
    PhiS6 V c (n + 1) hn = iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r)) := rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => k6_pay3 (acc6 V c t.val t.isLt) (iblk6 V c 2 t) (iblk6 V c 3 t)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = k6_pay3 (acc6 V c t.val t.isLt) (iblk6 V c 2 t) (iblk6 V c 3 t) := by dsimp only [dat6]

theorem Phi6_eq (c : Dev nD) (t : Fin (cfg6.N + 1)) : (dat6 V c).Φ t = PhiS6 V c t.val (Nat.le_of_lt_succ t.isLt) := by
  dsimp only [dat6]

end

end Cert.KernelIdeal.Hand

end
-- ==== Proof.KI.Fold.lean ====
import proofs.«423955_j37598143709627_1_alg».proof.Proof.Gen.KernelIdeal.Launch
import proofs.«423955_j37598143709627_1_alg».proof.Proof.Gen.KernelIdeal.Skeleton
import proofs.«423955_j37598143709627_1_alg».proof.Proof.KI.Defs0
import proofs.«423955_j37598143709627_1_alg».proof.Proof.KI.Defs1
import proofs.«423955_j37598143709627_1_alg».proof.Proof.KI.Defs2
import proofs.«423955_j37598143709627_1_alg».proof.Proof.KI.Defs3
import proofs.«423955_j37598143709627_1_alg».proof.Proof.KI.Defs4
import proofs.«423955_j37598143709627_1_alg».proof.Proof.KI.Defs5
import proofs.«423955_j37598143709627_1_alg».proof.Proof.KI.Defs6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem exit_arr0 (c : Dev nD) (w : Fin cfg0.W) : (dat0 (V1 m ρ) c).arrAt w cfg0.N = V2 m ρ c (Pipeline.arrRef spec0 w) :=
  (W2_arr m ρ c w).symm
theorem exit_rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b
theorem exit_arr1 (c : Dev nD) (w : Fin cfg1.W) : (dat1 (V2 m ρ) c).arrAt w cfg1.N = V3 m ρ c (Pipeline.arrRef spec1 w) :=
  (W3_arr m ρ c w).symm
theorem exit_rest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

abbrev V5 : (c : Dev nD) → (b : Ref sig .tc) → Buf (Elt F) ((c : Thread nD τ).loc b) := fun c b => W5 m ρ c b
theorem exit_arr2 (c : Dev nD) (w : Fin cfg2.W) : (dat2 (V4 m ρ) c).arrAt w cfg2.N = V5 m ρ c (Pipeline.arrRef spec2 w) :=
  (W5_arr m ρ c w).symm
theorem exit_rest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps3 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb

abbrev V7 : (c : Dev nD) → (b : Ref sig .tc) → Buf (Elt F) ((c : Thread nD τ).loc b) := fun c b => W7 m ρ c b
theorem exit_arr3 (c : Dev nD) (w : Fin cfg3.W) : (dat3 (V6 m ρ) c).arrAt w cfg3.N = V7 m ρ c (Pipeline.arrRef spec3 w) :=
  (W7_arr m ρ c w).symm
theorem exit_rest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb

abbrev V8 : (c : Dev nD) → (b : Ref sig .tc) → Buf (Elt F) ((c : Thread nD τ).loc b) := fun c b => W8 m ρ c b
theorem exit_arr4 (c : Dev nD) (w : Fin cfg4.W) : (dat4 (V7 m ρ) c).arrAt w cfg4.N = V8 m ρ c (Pipeline.arrRef spec4 w) :=
  (W8_arr m ρ c w).symm
theorem exit_rest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps5 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb

abbrev V10 : (c : Dev nD) → (b : Ref sig .tc) → Buf (Elt F) ((c : Thread nD τ).loc b) := fun c b => W10 m ρ c b
theorem exit_arr5 (c : Dev nD) (w : Fin cfg5.W) : (dat5 (V9 m ρ) c).arrAt w cfg5.N = V10 m ρ c (Pipeline.arrRef spec5 w) :=
  (W10_arr m ρ c w).symm
theorem exit_rest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb

abbrev V11 : (c : Dev nD) → (b : Ref sig .tc) → Buf (Elt F) ((c : Thread nD τ).loc b) := fun c b => W11 m ρ c b
theorem exit_arr6 (c : Dev nD) (w : Fin cfg6.W) : (dat6 (V10 m ρ) c).arrAt w cfg6.N = V11 m ρ c (Pipeline.arrRef spec6 w) :=
  (W11_arr m ρ c w).symm
theorem exit_rest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)

end Cert.KernelIdeal.Hand

end
-- ==== Proof.KI.Body0.lean ====
import proofs.«423955_j37598143709627_1_alg».proof.Proof.Gen.KernelIdeal.Launch
import proofs.«423955_j37598143709627_1_alg».proof.Proof.Gen.KernelIdeal.Skeleton
import proofs.«423955_j37598143709627_1_alg».proof.Proof.Gen.KernelIdeal.Points
import proofs.«423955_j37598143709627_1_alg».proof.Proof.KI.Defs0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem offs0_zero : (![0, 0] : Fin 2 → Nat) = fun _ => 0 := funext fun a => by fin_cases a <;> rfl

abbrev cond0_0 (i : grid0.Coords) : Prop :=
  (Scalar.cmpi .ne (Scalar.extui (Scalar.cmpi .eq (BitVec.ofNat 32 (i 1).val) 0#32)) 0#32) = 1#1

theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1

theorem hcond0_1 : ∀ t : Fin cfg0.N, cond0_1 (grid0.coords t) ↔ t.val % 50 = 49 :=
  (by decide +kernel : ∀ t : Fin grid0.N, cond0_1 (grid0.coords t) ↔ t.val % 50 = 49)

theorem cover0_head {e : EltTy} (p : S2000x128.Idx → Elt F e) (L : List (View.Piece (Elt F) S2000x128 e)) (y : S2000x128.Idx) :
    ∃ pc ∈ ((⟨Rect.unit (s := S2000x128) ![0, 0] S2000x128.size inb_S2000x128_S2000x128_0_0, p⟩ : View.Piece (Elt F) S2000x128 e) :: L),
      y ∈ pc.1.set :=
  ⟨_, List.Mem.head _, View.mem_set_unit_zero offs0_zero inb_S2000x128_S2000x128_0_0 y⟩

/-- One run of the body, from any contents `xs` of the scratch and `xi2` of the output's buffer. -/
theorem run0 (c : Dev nD) (i : grid0.Coords)
    (arg2 : Memref sig .tc .vmem S2000x1 .i32) (harg2 : arg2.IsWhole)
    (arg3 : Memref sig .tc .vmem S2000x128 .bf16) (harg3 : arg3.IsWhole)
    (arg4 : Memref sig .tc .vmem S2000x128 .bf16) (harg4 : arg4.IsWhole)
    (arg5 : Memref sig .tc .vmem S2000x128 .f32) (harg5 : arg5.IsWhole)
    (hc : cond0_0 i → ¬cond0_1 i)
    (x0 : Vec F S2000x1 .i32) (x1 : Vec F S2000x128 .bf16) (xs : Vec F S2000x128 .f32) (xi2 : Vec F S2000x128 .bf16)
    (E : Set ℕ) (K : PUnit → sProp 𝕄) :
    iprop(owns (c : Thread nD τ) arg2 fullShare x0 ∗ owns (c : Thread nD τ) arg3 fullShare x1
        ∗ owns (c : Thread nD τ) arg4 fullShare xi2 ∗ owns (c : Thread nD τ) arg5 fullShare xs
        ∗ (iprop(owns (c : Thread nD τ) arg2 fullShare x0 ∗ owns (c : Thread nD τ) arg3 fullShare x1
            ∗ owns (c : Thread nD τ) arg4 fullShare
                (if cond0_1 i then k0_pay3 (k0_pay2 i x0 x1 (if cond0_0 i then k0_pay1 else xs)) else xi2)
            ∗ owns (c : Thread nD τ) arg5 fullShare (k0_pay2 i x0 x1 (if cond0_0 i then k0_pay1 else xs))) -∗ K ⟨⟩))
      ⊢ wp frame (wpE (defs₀ (F := F)) Variants.none c none) E (cc0__gather_kernel i arg2 harg2 arg3 harg3 arg4 harg4 arg5 harg5) K := by
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  by_cases hc0 : cond0_0 i <;>
    [(have hc1 := hc hc0; rw [if_pos hc0, if_neg hc1]);
     (rw [if_neg hc0]; by_cases hc1 : cond0_1 i <;> [rw [if_pos hc1]; rw [if_neg hc1]])] <;> (
    simp only [cc0__gather_kernel_eq_skeleton]; unfold cc0__gather_kernel_skel
    sl_exec (disch := first | exact hc0 | exact hc1)
    sl_step
    iapply Hk
    isplitl [H0]; swap; isplitl [H1]; swap; isplitl [H2]
    all_goals
      iexists _; isplitr; swap; · iassumption
      ipureintro
      first
      | sl_unfold_words
        rw [View.read_writes_eq_canon _ _ _ (cover0_head _ _), View.canon_cons_unit_zero (S := S2000x128) offs0_zero]
        simp only [View.readAt_eq_ld, harg2.read_unread, harg3.read_unread, harg5.read_unread, View.ld_unit_zero (S := S2000x1) offs0_zero,
          View.ld_unit_zero (S := S2000x128) offs0_zero, View.readCov_unit_zero (S := S2000x128) _ offs0_zero]
      | exact Memref.IsWhole.read_unread _ _)

section
variable (V : (c : Dev nD) → (b : Ref sig .tc) → Buf (Elt F) ((c : Thread nD τ).loc b))

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem PhiA0_eq (c : Dev nD) :
    (Pipeline.ΦA spec0 c : sProp 𝕄)
      = iprop(iprop(iprop(∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0, owns_whole]; try rfl

/-- Before point `n` the scratch holds contents from which the run at `n` leaves `acc0 … n`. -/
theorem PhiS0_open (c : Dev nD) (n : ℕ) (h : n ≤ cfg0.N) :
    PhiS0 V c n h ⊢ (iprop(∃ xs, ⌜∀ hn : n < cfg0.N, acc0 V c n hn
        = k0_pay2 (grid0.coords ⟨n, hn⟩) (iblk0 V c 0 ⟨n, hn⟩) (iblk0 V c 1 ⟨n, hn⟩) (if cond0_0 (grid0.coords ⟨n, hn⟩) then k0_pay1 else xs)⌝
      ∗ owns (c : Thread nD τ) scM0 fullShare xs ∗ Pipeline.scopedRestBut (Ix := Unit) (Name := ℕ) (U := UR sig nD τ) (Lvl := ℕ) (Val := Elt F) spec0 c [cc0_scratch0]
      ∗ (∃ r, prngReg c r)) : sProp 𝕄) := by
  cases n with
  | zero =>
    rw [PhiS0_zero, PhiA0_eq]
    iintro ⟨⟨⟨%d, HS⟩, Hr⟩, Hg⟩
    iexists d; iframe HS Hr Hg
    ipureintro; intro hn; rw [if_pos ((hcond0_0 ⟨0, hn⟩).mpr rfl)]; rfl
  | succ n =>
    rw [PhiS0_succ]
    iintro ⟨HS, Hr, Hg⟩
    iexists _; iframe HS Hr Hg
    ipureintro; intro hn; rw [acc0_succ]; congr 1; exact if_congr (hcond0_0 ⟨n + 1, hn⟩).symm rfl rfl

/-- The output's buffer after point `t`: written at a segment's last point, else as found. -/
theorem leaves0_2 (c : Dev nD) (t : Fin cfg0.N) (d) :
    owns (c : Thread nD τ) (st0_2 t) fullShare (if cond0_1 (grid0.coords t) then (dat0 V c).after 2 t else (dat0 V c).before 2 t d)
      ⊢ (dat0 V c).leavesExact 2 t := by
  by_cases h : cond0_1 (grid0.coords t)
  · rw [if_pos h]; unfold Dat.leavesExact
    rw [show cfg0.idle 2 (grid0.coords t) = false from by
      show (!(k0_cond2 _ == 1#1)) = false; rw [Bool.not_eq_false', beq_iff_eq]; exact h]
  · rw [if_neg h, Dat.leavesExact_idle (dat0 V c) 2 t
      (by show (!(k0_cond2 _ == 1#1)) = true; rw [Bool.not_eq_true', beq_eq_false_iff_ne]; exact h)
      (Bool.eq_false_iff.mpr fun hf => h ((hcond0_1 t).mpr ((flush0_2 t).mp hf)))]
    iintro H; iexists _; iexact H

theorem body_obligation0 (c : Dev nD) : BodyObligation (dat0 (F := F) V c) (defs₀ (F := F)) Variants.none () Set.univ := fun t => by
  rw [bigSep_W0, bigSep_W0]
  show iprop(PhiS0 V c t.val (Nat.le_of_lt t.isLt) ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop(PhiS0 V c (t.val + 1) t.isLt ∗ (dat0 V c).owesAt () t.castSucc
        ∗ owns (c : Thread nD τ) (st0_0 t) fullShare (iblk0 V c 0 t)
        ∗ owns (c : Thread nD τ) (st0_1 t) fullShare (iblk0 V c 1 t) ∗ (dat0 V c).leavesExact 2 t)
  simp only [before0_0, before0_1]; rw [PhiS0_succ]
  iintro ⟨HΦ, Ho, ⟨%d0, H0⟩, ⟨%d1, H1⟩, ⟨%d2, H2⟩⟩
  ihave ⟨%xs, %hxs, HS, Hr, Hg⟩ := PhiS0_open V c _ _ $$ HΦ
  iapply (run0 c (grid0.coords t) _ _ _ _ _ _ _ _
    (fun h0 h1 => by have := (hcond0_0 t).mp h0; have := (hcond0_1 t).mp h1; omega)
    (iblk0 V c 0 t) (iblk0 V c 1 t) xs ((dat0 V c).before 2 t d2) Set.univ _)
  iframe H0 H1 H2 HS
  iintro ⟨H0, H1, H2, HS⟩
  rw [hxs t.isLt]
  iframe HS Hr Hg Ho H0 H1
  iapply leaves0_2 V c t d2
  rw [after0_2, hxs t.isLt]; iexact H2

theorem hin0 (c : Dev nD) : (Pipeline.ΦA spec0 c : sProp 𝕄) ⊢ (dat0 V c).Φ 0 := Entails.refl _

theorem hout0 (c : Dev nD) : (dat0 V c).Φ (Fin.last cfg0.N) ⊢ (Pipeline.ΦA spec0 c : sProp 𝕄) := by
  rw [Phi0_eq, PhiA0_eq]
  refine (PhiS0_open V c _ _).trans ?_
  iintro ⟨%xs, -, HS, Hr, Hg⟩
  iframe Hr Hg; iexists _; iexact HS

end

end Cert.KernelIdeal.Hand

end
-- ==== Proof.KI.Body1.lean ====
import proofs.«423955_j37598143709627_1_alg».proof.Proof.Gen.KernelIdeal.Launch
import proofs.«423955_j37598143709627_1_alg».proof.Proof.Gen.KernelIdeal.Skeleton
import proofs.«423955_j37598143709627_1_alg».proof.Proof.Gen.KernelIdeal.Points
import proofs.«423955_j37598143709627_1_alg».proof.Proof.KI.Defs1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_a (i : grid1.Coords) : Prop := (Scalar.cmpi .ne (Scalar.extui (Scalar.cmpi .eq (BitVec.ofNat 32 (i 1).val) 0#32)) 0#32) = 1#1

abbrev cond1_b (i : grid1.Coords) : Prop := k1_cond2 i = 1#1

theorem zeros1 : (![0, 0] : Fin 2 → Nat) = fun _ => 0 := funext fun a => by fin_cases a <;> rfl

set_option maxHeartbeats 1000000 in

theorem run1_A (c : Dev nD) (i : grid1.Coords) (arg2 : Memref sig .tc .vmem S2000x1 .i32) (harg2 : arg2.IsWhole)
    (arg3 : Memref sig .tc .vmem S2000x128 .bf16) (harg3 : arg3.IsWhole) (arg4 : Memref sig .tc .vmem S2000x128 .f32) (harg4 : arg4.IsWhole)
    (arg5 : Memref sig .tc .vmem S2000x128 .f32) (harg5 : arg5.IsWhole) (hc0 : cond1_a i) (hc1 : ¬cond1_b i)
    (x0 : Vec F S2000x1 .i32) (x1 : Vec F S2000x128 .bf16) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 i x0 x1 (k1_pay1 (F := F)))) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self .., View.mem_set_unit_zero zeros1 inb_S2000x128_S2000x128_0_0 y⟩),
    View.canon_cons_unit_zero (S := S2000x128) zeros1]
  simp only [View.readAt_eq_ld, harg2.read_unread, harg3.read_unread, View.ld_unit_zero (S := S2000x1) zeros1,
    View.ld_unit_zero (S := S2000x128) zeros1, View.readCov_unit_zero (S := S2000x128) _ zeros1]

set_option maxHeartbeats 1000000 in

theorem run1_B (c : Dev nD) (i : grid1.Coords) (arg2 : Memref sig .tc .vmem S2000x1 .i32) (harg2 : arg2.IsWhole)
    (arg3 : Memref sig .tc .vmem S2000x128 .bf16) (harg3 : arg3.IsWhole) (arg4 : Memref sig .tc .vmem S2000x128 .f32) (harg4 : arg4.IsWhole)
    (arg5 : Memref sig .tc .vmem S2000x128 .f32) (harg5 : arg5.IsWhole) (hc0 : ¬cond1_a i) (hc1 : ¬cond1_b i)
    (x0 : Vec F S2000x1 .i32) (x1 : Vec F S2000x128 .bf16) (xs : Vec F S2000x128 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k1_pay2 i x0 x1 xs)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self .., View.mem_set_unit_zero zeros1 inb_S2000x128_S2000x128_0_0 y⟩),
    View.canon_cons_unit_zero (S := S2000x128) zeros1]
  simp only [View.readAt_eq_ld, harg2.read_unread, harg3.read_unread, harg5.read_unread, View.ld_unit_zero (S := S2000x1) zeros1,
    View.ld_unit_zero (S := S2000x128) zeros1, View.readCov_unit_zero (S := S2000x128) _ zeros1]

set_option maxHeartbeats 1000000 in

theorem run1_C (c : Dev nD) (i : grid1.Coords) (arg2 : Memref sig .tc .vmem S2000x1 .i32) (harg2 : arg2.IsWhole)
    (arg3 : Memref sig .tc .vmem S2000x128 .bf16) (harg3 : arg3.IsWhole) (arg4 : Memref sig .tc .vmem S2000x128 .f32) (harg4 : arg4.IsWhole)
    (arg5 : Memref sig .tc .vmem S2000x128 .f32) (harg5 : arg5.IsWhole) (hc0 : ¬cond1_a i) (hc1 : cond1_b i)
    (x0 : Vec F S2000x1 .i32) (x1 : Vec F S2000x128 .bf16) (xs : Vec F S2000x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay2 i x0 x1 xs)
            ∗ owns (c : Thread nD τ) arg5 fullShare (k1_pay2 i x0 x1 xs)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_cons_self .., View.mem_set_unit_zero zeros1 inb_S2000x128_S2000x128_0_0 y⟩),
      View.canon_cons_unit_zero (S := S2000x128) zeros1]
    simp only [View.readAt_eq_ld, harg2.read_unread, harg3.read_unread, harg5.read_unread, View.ld_unit_zero (S := S2000x1) zeros1,
      View.ld_unit_zero (S := S2000x128) zeros1, View.readCov_unit_zero (S := S2000x128) _ zeros1]
  iexists _; isplitr
  swap; · iexact HS
  ipureintro
  sl_unfold_words
  rw [View.read_writes_eq_canon _ _ _ (fun y => ⟨_, List.mem_cons_self .., View.mem_set_unit_zero zeros1 inb_S2000x128_S2000x128_0_0 y⟩),
    View.canon_cons_unit_zero (S := S2000x128) zeros1]
  simp only [View.readAt_eq_ld, harg2.read_unread, harg3.read_unread, harg5.read_unread, View.ld_unit_zero (S := S2000x1) zeros1,
    View.ld_unit_zero (S := S2000x128) zeros1, View.readCov_unit_zero (S := S2000x128) _ zeros1]

/-- One run from any scratch and output contents: the sum restarts from zeros under the first condition, is copied out under the second. -/
theorem run1 (c : Dev nD) (i : grid1.Coords) (arg2 : Memref sig .tc .vmem S2000x1 .i32) (harg2 : arg2.IsWhole)
    (arg3 : Memref sig .tc .vmem S2000x128 .bf16) (harg3 : arg3.IsWhole) (arg4 : Memref sig .tc .vmem S2000x128 .f32) (harg4 : arg4.IsWhole)
    (arg5 : Memref sig .tc .vmem S2000x128 .f32) (harg5 : arg5.IsWhole) (hab : cond1_a i → ¬cond1_b i)
    (x0 : Vec F S2000x1 .i32) (x1 : Vec F S2000x128 .bf16) (x4 xs : Vec F S2000x128 .f32) (E : Set ℕ) (K : PUnit → sProp 𝕄) :
    iprop(owns (c : Thread nD τ) arg2 fullShare x0 ∗ owns (c : Thread nD τ) arg3 fullShare x1 ∗ owns (c : Thread nD τ) arg4 fullShare x4 ∗ owns (c : Thread nD τ) arg5 fullShare xs
        ∗ (iprop(owns (c : Thread nD τ) arg2 fullShare x0 ∗ owns (c : Thread nD τ) arg3 fullShare x1
            ∗ owns (c : Thread nD τ) arg4 fullShare (if cond1_b i then k1_pay2 i x0 x1 (if cond1_a i then k1_pay1 else xs) else x4)
            ∗ owns (c : Thread nD τ) arg5 fullShare (k1_pay2 i x0 x1 (if cond1_a i then k1_pay1 else xs))) -∗ K ⟨⟩))
      ⊢ wp frame (wpE (defs₀ (F := F)) Variants.none c none) E (cc1__scatter_kernel i arg2 harg2 arg3 harg3 arg4 harg4 arg5 harg5) K := by
  by_cases ha : cond1_a i
  · rw [if_pos ha, if_neg (hab ha)]
    iintro ⟨H0, H1, H4, HS, Hk⟩
    iapply (run1_A c i arg2 harg2 arg3 harg3 arg4 harg4 arg5 harg5 ha (hab ha) x0 x1 E K)
    iframe H0 H1
    isplitl [HS]; · iexists _; iexact HS
    iintro ⟨H0, H1, HS⟩; iapply Hk; iframe H0 H1 H4; iexact HS
  · rw [if_neg ha]
    by_cases hb : cond1_b i
    · rw [if_pos hb]
      iintro ⟨H0, H1, H4, HS, Hk⟩
      iapply (run1_C c i arg2 harg2 arg3 harg3 arg4 harg4 arg5 harg5 ha hb x0 x1 xs E K)
      iframe H0 H1 HS
      isplitl [H4]; · iexists _; iexact H4
      iintro ⟨H0, H1, H4, HS⟩; iapply Hk; iframe H0 H1 H4; iexact HS
    · rw [if_neg hb]
      iintro ⟨H0, H1, H4, HS, Hk⟩
      iapply (run1_B c i arg2 harg2 arg3 harg3 arg4 harg4 arg5 harg5 ha hb x0 x1 xs E K)
      iframe H0 H1 HS
      iintro ⟨H0, H1, HS⟩; iapply Hk; iframe H0 H1 H4; iexact HS

theorem hcond1_a : ∀ t : Fin cfg1.N, cond1_a (grid1.coords t) ↔ t.val % 200 = 0 :=
  (by decide +kernel : ∀ t : Fin grid1.N, cond1_a (grid1.coords t) ↔ t.val % 200 = 0)

theorem hcond1_b : ∀ t : Fin cfg1.N, cond1_b (grid1.coords t) ↔ t.val % 200 = 199 :=
  (by decide +kernel : ∀ t : Fin grid1.N, cond1_b (grid1.coords t) ↔ t.val % 200 = 199)

section
variable (V : (c : Dev nD) → (b : Ref sig .tc) → Buf (Elt F) ((c : Thread nD τ).loc b))

/-- The running sum after point `t` is one step from the scratch `d` found there, when that is the sum so far. -/
theorem acc1_step (c : Dev nD) (t : Fin cfg1.N) (d : Vec F S2000x128 .f32)
    (hd : t.val ≠ 0 → d = acc1 V c (t.val - 1) (Nat.lt_of_le_of_lt (Nat.sub_le _ _) t.isLt)) :
    acc1 V c t.val t.isLt
      = k1_pay2 (grid1.coords t) (iblk1 V c 0 t) (iblk1 V c 1 t) (if cond1_a (grid1.coords t) then k1_pay1 else d) := by
  obtain ⟨n, hn⟩ := t
  cases n with
  | zero => exact (acc1_zero V c hn).trans (by rw [if_pos ((hcond1_a ⟨0, hn⟩).2 rfl)])
  | succ n => exact (acc1_succ V c n hn).trans (by rw [hd n.succ_ne_zero, if_congr (hcond1_a ⟨n + 1, hn⟩) rfl rfl]; rfl)

theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-- The invariant holds the scratch at some contents: the running sum so far, once a point has run. -/
theorem PhiS1_open (c : Dev nD) (n : ℕ) (h : n ≤ cfg1.N) :
    PhiS1 V c n h ⊢ iprop((∃ d, ⌜∀ hz : n ≠ 0, d = acc1 V c (n - 1) (by omega)⌝ ∗ owns (c : Thread nD τ) scM1 fullShare d)
      ∗ Pipeline.scopedRestBut (Ix := Unit) (Name := ℕ) (U := UR sig nD τ) (Lvl := ℕ) (Val := Elt F) spec1 c [cc1_scratch0]
      ∗ (∃ r, prngReg c r)) := by
  cases n with
  | zero =>
    rw [PhiS1_zero, PhiA1_eq]
    iintro ⟨⟨⟨%d, HS⟩, HR⟩, Hg⟩
    iframe HR Hg; iexists d; isplitr; · ipureintro; exact fun hz => absurd rfl hz
    iexact HS
  | succ n =>
    rw [PhiS1_succ]
    iintro ⟨HS, HR, Hg⟩
    iframe HR Hg; iexists acc1 V c n h; isplitr; · ipureintro; exact fun _ => rfl
    iexact HS

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d

theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

/-- The output's buffer leaves a point at the running sum where the second condition writes it, else as found. -/
theorem leaves1_2 (c : Dev nD) (t : Fin cfg1.N) (d) (X : Vec F S2000x128 .f32) (hX : acc1 V c t.val t.isLt = X) :
    owns (c : Thread nD τ) (st1_2 t) fullShare (if cond1_b (grid1.coords t) then X else (dat1 V c).before 2 t d)
      ⊢ (dat1 V c).leavesExact 2 t := by
  subst hX
  by_cases hb : cond1_b (grid1.coords t)
  · rw [if_pos hb, ← after1_2]; unfold Dat.leavesExact
    rw [show cfg1.idle 2 (grid1.coords t) = false from by
      show (!(k1_cond2 _ == 1#1)) = false; rw [show k1_cond2 _ = 1#1 from hb]; rfl]
  · rw [if_neg hb, Dat.leavesExact_idle _ 2 t (by show (!(k1_cond2 _ == 1#1)) = true; rw [beq_eq_false_iff_ne.2 hb]; rfl)
      (Bool.eq_false_iff.2 fun hf => hb ((hcond1_b t).2 ((flush1_2 t).1 hf)))]
    iintro H; iexists _; iexact H

theorem sound_body1 (c : Dev nD) (t : Fin cfg1.N) :
    iprop(PhiS1 V c t.val (Nat.le_of_lt t.isLt) ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := F)) Variants.none c none) Set.univ (bodyAt1 t) fun _ =>
      iprop(PhiS1 V c (t.val + 1) t.isLt ∗ (dat1 V c).owesAt () t.castSucc
        ∗ owns (c : Thread nD τ) (st1_0 t) fullShare (iblk1 V c 0 t)
        ∗ owns (c : Thread nD τ) (st1_1 t) fullShare (iblk1 V c 1 t)
        ∗ (dat1 V c).leavesExact 2 t) := by
  simp only [before1_0, before1_1]
  refine (sep_mono_left (PhiS1_open V c _ _)).trans ?_
  iintro ⟨⟨⟨%ds, %hds, HS⟩, HR, Hg⟩, Ho, ⟨%d0, H0⟩, ⟨%d1, H1⟩, ⟨%d2, H2⟩⟩
  have hs := acc1_step V c t ds hds
  iapply (run1 c (grid1.coords t) (st1_0 t) _ (st1_1 t) _ (st1_2 t) _ scM1 _
    (fun ha hb => by have := (hcond1_a t).1 ha; have := (hcond1_b t).1 hb; omega)
    (iblk1 V c 0 t) (iblk1 V c 1 t) ((dat1 V c).before 2 t d2) ds Set.univ _)
  iframe H0 H1 H2 HS
  iintro ⟨H0, H1, H2, HS⟩
  rw [PhiS1_succ, hs]
  iframe HS HR Hg Ho H0 H1
  iapply (leaves1_2 V c t d2 _ hs); iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [Phi1_eq]
  exact Idealize.SL.BI.Entails.refl _

theorem hout1 (c : Dev nD) : (dat1 V c).Φ (Fin.last cfg1.N) ⊢ (Pipeline.ΦA spec1 c : sProp 𝕄) := by
  rw [Phi1_eq, PhiA1_eq]
  refine (PhiS1_open V c _ _).trans ?_
  iintro ⟨⟨%d, -, HS⟩, HR, Hg⟩
  iframe HR Hg; iexists d; iexact HS

end

end Cert.KernelIdeal.Hand

end
-- ==== Proof.KI.Body2.lean ====
import proofs.«423955_j37598143709627_1_alg».proof.Proof.Gen.KernelIdeal.Launch
import proofs.«423955_j37598143709627_1_alg».proof.Proof.Gen.KernelIdeal.Skeleton
import proofs.«423955_j37598143709627_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«423955_j37598143709627_1_alg».proof.Proof.KI.Defs2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem zero2_rank2 : (![0, 0] : Fin 2 → Nat) = fun _ => 0 := by
  funext a; fin_cases a <;> rfl

theorem zero2_rank1 : (![0] : Fin 1 → Nat) = fun _ => 0 := by
  funext a; fin_cases a; rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d

theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem sound_kernel2 (c : Dev nD) (E : Set ℕ) (i : grid2.Coords)
    (arg1 : Memref sig .tc .vmem S2000x128 .f32) (harg1 : arg1.IsWhole)
    (arg2 : Memref sig .tc .vmem S2000x128 .f32) (harg2 : arg2.IsWhole)
    (arg3 : Memref sig .tc .vmem S128x256 .bf16) (harg3 : arg3.IsWhole)
    (arg4 : Memref sig .tc .vmem S256 .f32) (harg4 : arg4.IsWhole)
    (arg5 : Memref sig .tc .vmem S128x256 .bf16) (harg5 : arg5.IsWhole)
    (arg6 : Memref sig .tc .vmem S2000x256 .f32) (harg6 : arg6.IsWhole)
    (x0 : Vec F S2000x128 .f32) (x1 : Vec F S2000x128 .f32) (x2 : Vec F S128x256 .bf16) (x3 : Vec F S256 .f32)
    (x4 : Vec F S128x256 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k2_pay1 x0 x1 x2 x3 x4)) -∗ K ⟨⟩))
      ⊢ wp frame (wpE (defs₀ (F := F)) Variants.none c none) E
          (cc2__combine_kernel i arg1 harg1 arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  simp only [cc2__combine_kernel_eq_skeleton]; unfold cc2__combine_kernel_skel
  sl_exec
  sl_step
  iapply Hk
  isplitl [H0]; swap; isplitl [H1]; swap; isplitl [H2]; swap; isplitl [H3]; swap; isplitl [H4]; swap
  · iexists _; isplitr
    swap; · iexact H5
    ipureintro
    rw [View.read_writes_eq_canon _ _ _
        (fun y => ⟨_, List.mem_singleton_self _, View.mem_set_unit_zero zero2_rank2 inb_S2000x256_S2000x256_0_0 y⟩),
      View.canon_unit_zero zero2_rank2]
    simp only [View.readAt_eq_ld, View.ld_unit_zero (S := S2000x128) zero2_rank2,
      View.ld_unit_zero (S := S128x256) zero2_rank2, View.ld_unit_zero (S := S256) zero2_rank1]
  all_goals
    iexists _; isplitr; swap; · iassumption
    ipureintro; rfl

theorem body_obligation2 (c : Dev nD) : BodyObligation (dat2 (F := F) V c) (defs₀ (F := F)) Variants.none () Set.univ := fun t => by
  rw [bigSep_W2, bigSep_W2]
  show _ ⊢ wp frame (wpE (defs₀ (F := F)) Variants.none c none) Set.univ (bodyAt2 t) fun _ =>
      iprop((dat2 V c).Φ t.castSucc ∗ (dat2 V c).owesAt () t.castSucc
        ∗ owns (c : Thread nD τ) (st2_0 t) fullShare (iblk2 V c 0 t) ∗ owns (c : Thread nD τ) (st2_1 t) fullShare (iblk2 V c 1 t)
        ∗ owns (c : Thread nD τ) (st2_2 t) fullShare (iblk2 V c 2 t) ∗ owns (c : Thread nD τ) (st2_3 t) fullShare (iblk2 V c 3 t)
        ∗ owns (c : Thread nD τ) (st2_4 t) fullShare (iblk2 V c 4 t)
        ∗ owns (c : Thread nD τ) (st2_5 t) fullShare (k2_pay1 (iblk2 V c 0 t) (iblk2 V c 1 t) (iblk2 V c 2 t) (iblk2 V c 3 t) (iblk2 V c 4 t)))
  simp only [before2_0, before2_1, before2_2, before2_3, before2_4]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe

theorem hin2 (c : Dev nD) : (Pipeline.ΦA spec2 c : sProp 𝕄) ⊢ (dat2 V c).Φ 0 := Entails.refl _

theorem hout2 (c : Dev nD) : (dat2 V c).Φ (Fin.last cfg2.N) ⊢ (Pipeline.ΦA spec2 c : sProp 𝕄) := Entails.refl _

end

end Cert.KernelIdeal.Hand

end
-- ==== Proof.KI.Body6.lean ====
import proofs.«423955_j37598143709627_1_alg».proof.Proof.Gen.KernelIdeal.Launch
import proofs.«423955_j37598143709627_1_alg».proof.Proof.Gen.KernelIdeal.Skeleton
import proofs.«423955_j37598143709627_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«423955_j37598143709627_1_alg».proof.Proof.KI.Defs6

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond6_0 (i : grid6.Coords) : Prop :=
  (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 49 :=
  (by decide +kernel : ∀ t : Fin grid6.N, cond6_1 (grid6.coords t) ↔ t.val = 49)

theorem idleAt6_4 : ∀ t : Fin cfg6.N, ¬cond6_1 (grid6.coords t) → cfg6.idle 4 (grid6.coords t) = true := by decide +kernel

theorem noFlush6_4 : ∀ t : Fin cfg6.N, ¬cond6_1 (grid6.coords t) → (cfg6.win 4).flush t = false := by decide +kernel

theorem liveAt6_4 : ∀ t : Fin cfg6.N, cond6_1 (grid6.coords t) → cfg6.idle 4 (grid6.coords t) = false := by decide +kernel

theorem hz2 : (![0, 0] : Fin 2 → Nat) = fun _ => 0 := by funext a; fin_cases a <;> rfl

theorem hz1 : (![0] : Fin 1 → Nat) = fun _ => 0 := by funext a; fin_cases a <;> rfl

/-- Reading a buffer back after a store that covers it whole gives the stored payload. -/
theorem read_writes_unit {κ : Kind} {sp : Space} {S : Shape} {e : EltTy} (v : View sig κ sp S e) (f : v.ty.Contents (Elt F))
    {off : Fin S.rank → Nat} (inb : ∀ a, off a + S.size a ≤ S.size a) (w : S.Idx → Elt F e) (L : List (View.Piece (Elt F) S e)) :
    v.read (Elt F) (v.writes (Elt F) f (⟨Rect.unit off S.size inb, w⟩ :: L)) = w := by
  have h : off = fun _ => 0 := funext fun a => by have := inb a; omega
  rw [View.read_writes_eq_canon _ _ _ fun y => ⟨_, List.Mem.head _, View.mem_set_unit_zero h inb y⟩, View.canon_cons_unit_zero h]

set_option maxHeartbeats 400000 in
/-- One run of the body, from any contents `xs` of the scratch and `xo` of the output's buffer. -/
theorem run6 (c : Dev nD) (i : grid6.Coords) (arg1 : Memref sig .tc .vmem S2000x256 .f32) (harg1 : arg1.IsWhole) (arg2 : Memref sig .tc .vmem S2000x1 .i32) (harg2 : arg2.IsWhole) (arg3 : Memref sig .tc .vmem S256x12 .bf16) (harg3 : arg3.IsWhole) (arg4 : Memref sig .tc .vmem S12 .f32) (harg4 : arg4.IsWhole) (arg5 : Memref sig .tc .vmem S2000x12 .f32) (harg5 : arg5.IsWhole) (arg6 : Memref sig .tc .vmem S2000x256 .f32) (harg6 : arg6.IsWhole)
    (hc : cond6_0 i → ¬cond6_1 i) (x0 : Vec F S2000x256 .f32) (x1 : Vec F S2000x1 .i32) (x2 : Vec F S256x12 .bf16) (x3 : Vec F S12 .f32)
    (xo : Vec F S2000x12 .f32) (xs : Vec F S2000x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (if cond6_1 i then k6_pay3 (k6_pay2 x0 x1 (if cond6_0 i then k6_pay1 else xs)) x2 x3 else xo)
            ∗ owns (c : Thread nD τ) arg6 fullShare (k6_pay2 x0 x1 (if cond6_0 i then k6_pay1 else xs))) -∗ K ⟨⟩))
      ⊢ wp frame (wpE (defs₀ (F := F)) Variants.none c none) E (cc6__pool_kernel i arg1 harg1 arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  by_cases hc0 : cond6_0 i <;>
    [(have hc1 := hc hc0; rw [if_pos hc0, if_neg hc1]);
     (rw [if_neg hc0]; by_cases hc1 : cond6_1 i <;> [rw [if_pos hc1]; rw [if_neg hc1]])] <;> (
    simp only [cc6__pool_kernel_eq_skeleton]; unfold cc6__pool_kernel_skel
    sl_exec (disch := first | exact hc0 | exact hc1)
    sl_step
    iapply Hk
    isplitl [H0]; swap; isplitl [H1]; swap; isplitl [H2]; swap; isplitl [H3]; swap; isplitl [H4]
    all_goals
      iexists _; isplitr; swap; · iassumption
      ipureintro
      first
      | sl_unfold_words
        rw [read_writes_unit]
        simp only [View.readAt_eq_ld, harg1.read_unread, harg2.read_unread, harg3.read_unread, harg4.read_unread, harg6.read_unread,
          View.ld_unit_zero (S := S2000x256) hz2, View.ld_unit_zero (S := S2000x1) hz2, View.ld_unit_zero (S := S256x12) hz2,
          View.ld_unit_zero (S := S12) hz1, View.readCov_unit_zero (S := S2000x256) _ hz2]
      | exact Memref.IsWhole.read_unread _ _)

section
variable (V : (c : Dev nD) → (b : Ref sig .tc) → Buf (Elt F) ((c : Thread nD τ).loc b))

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d

theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

theorem before6_3 (c : Dev nD) (t : Fin cfg6.N) (d) : (dat6 V c).before 3 t d = iblk6 V c 3 t :=
  (dat6 V c).before_in_eq_fetched 3 rfl (fun _ => rfl) (fun _ _ _ => rfl) (fun _ => rfl) t d

theorem PhiA6_eq (c : Dev nD) :
    (Pipeline.ΦA spec6 c : sProp 𝕄)
      = iprop(((∃ d, owns (c : Thread nD τ) scM6 fullShare d) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-- Before point `n` the scratch holds contents from which the run at `n` leaves `acc6 … n`. -/
theorem PhiS6_open (c : Dev nD) (n : ℕ) (h : n ≤ cfg6.N) :
    PhiS6 V c n h ⊢ (iprop(∃ xs, ⌜∀ hn : n < cfg6.N, acc6 V c n hn
        = k6_pay2 (iblk6 V c 0 ⟨n, hn⟩) (iblk6 V c 1 ⟨n, hn⟩) (if cond6_0 (grid6.coords ⟨n, hn⟩) then k6_pay1 else xs)⌝
      ∗ owns (c : Thread nD τ) scM6 fullShare xs ∗ Pipeline.scopedRestBut (Ix := Unit) (Name := ℕ) (U := UR sig nD τ) (Lvl := ℕ) (Val := Elt F) spec6 c [cc6_scratch0]
      ∗ (∃ r, prngReg c r)) : sProp 𝕄) := by
  cases n with
  | zero =>
    rw [PhiS6_zero, PhiA6_eq]
    iintro ⟨⟨⟨%d, HS⟩, Hr⟩, Hg⟩
    iexists d; iframe HS Hr Hg
    ipureintro; intro hn; rw [if_pos ((hcond6_0 ⟨0, hn⟩).mpr rfl)]; rfl
  | succ n =>
    rw [PhiS6_succ]
    iintro ⟨HS, Hr, Hg⟩
    iexists _; iframe HS Hr Hg
    ipureintro; intro hn; rw [if_neg fun h => Nat.succ_ne_zero n ((hcond6_0 ⟨n + 1, hn⟩).mp h)]; rfl

/-- The output's buffer after point `t`: written at the last point, else as found. -/
theorem leaves6_4 (c : Dev nD) (t : Fin cfg6.N) (d) :
    owns (c : Thread nD τ) (st6_4 t) fullShare (if cond6_1 (grid6.coords t) then (dat6 V c).after 4 t else (dat6 V c).before 4 t d)
      ⊢ (dat6 V c).leavesExact 4 t := by
  by_cases h : cond6_1 (grid6.coords t)
  · rw [if_pos h]; unfold Dat.leavesExact; rw [liveAt6_4 t h]
  · rw [if_neg h, Dat.leavesExact_idle (dat6 V c) 4 t (idleAt6_4 t h) (noFlush6_4 t h)]
    iintro H; iexists _; iexact H

theorem body_obligation6 (c : Dev nD) : BodyObligation (dat6 (F := F) V c) (defs₀ (F := F)) Variants.none () Set.univ := fun t => by
  rw [bigSep_W6, bigSep_W6]
  show iprop(PhiS6 V c t.val (Nat.le_of_lt t.isLt) ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d))
      ∗ (∃ d, owns (c : Thread nD τ) (st6_4 t) fullShare ((dat6 V c).before 4 t d)))
    ⊢ wp frame (wpE (defs₀ (F := F)) Variants.none c none) Set.univ (bodyAt6 t) fun _ =>
      iprop(PhiS6 V c (t.val + 1) t.isLt ∗ (dat6 V c).owesAt () t.castSucc
        ∗ owns (c : Thread nD τ) (st6_0 t) fullShare (iblk6 V c 0 t) ∗ owns (c : Thread nD τ) (st6_1 t) fullShare (iblk6 V c 1 t)
        ∗ owns (c : Thread nD τ) (st6_2 t) fullShare (iblk6 V c 2 t) ∗ owns (c : Thread nD τ) (st6_3 t) fullShare (iblk6 V c 3 t)
        ∗ (dat6 V c).leavesExact 4 t)
  simp only [before6_0, before6_1, before6_2, before6_3]; rw [PhiS6_succ]
  iintro ⟨HΦ, Ho, ⟨%d0, H0⟩, ⟨%d1, H1⟩, ⟨%d2, H2⟩, ⟨%d3, H3⟩, ⟨%d4, H4⟩⟩
  ihave ⟨%xs, %hxs, HS, Hr, Hg⟩ := PhiS6_open V c _ _ $$ HΦ
  iapply (run6 c (grid6.coords t) _ _ _ _ _ _ _ _ _ _ _ _
    (fun h0 h1 => by have := (hcond6_0 t).mp h0; have := (hcond6_1 t).mp h1; omega)
    (iblk6 V c 0 t) (iblk6 V c 1 t) (iblk6 V c 2 t) (iblk6 V c 3 t) ((dat6 V c).before 4 t d4) xs Set.univ _)
  iframe H0 H1 H2 H3 H4 HS
  iintro ⟨H0, H1, H2, H3, H4, HS⟩
  rw [hxs t.isLt]
  iframe HS Hr Hg Ho H0 H1 H2 H3
  iapply leaves6_4 V c t d4
  rw [after6_4, hxs t.isLt]; iexact H4

theorem hin6 (c : Dev nD) : (Pipeline.ΦA spec6 c : sProp 𝕄) ⊢ (dat6 V c).Φ 0 := Entails.refl _

theorem hout6 (c : Dev nD) : (dat6 V c).Φ (Fin.last cfg6.N) ⊢ (Pipeline.ΦA spec6 c : sProp 𝕄) := by
  rw [Phi6_eq, PhiA6_eq]
  refine (PhiS6_open V c _ _).trans ?_
  iintro ⟨%xs, -, HS, Hr, Hg⟩
  iframe Hr Hg; iexists _; iexact HS

end

end Cert.KernelIdeal.Hand

end
-- ==== Proof.KI.Run.lean ====
import proofs.«423955_j37598143709627_1_alg».proof.Proof.Gen.KernelIdeal.Launch
import proofs.«423955_j37598143709627_1_alg».proof.Proof.Gen.KernelIdeal.Skeleton
import proofs.«423955_j37598143709627_1_alg».proof.Proof.Gen.KernelIdeal.Points
import proofs.«423955_j37598143709627_1_alg».proof.Proof.Gen.KernelIdeal.Regions
import proofs.«423955_j37598143709627_1_alg».proof.Proof.KI.Fold
import proofs.«423955_j37598143709627_1_alg».proof.Proof.KI.Body0
import proofs.«423955_j37598143709627_1_alg».proof.Proof.KI.Body1
import proofs.«423955_j37598143709627_1_alg».proof.Proof.KI.Body2
import proofs.«423955_j37598143709627_1_alg».proof.Proof.KI.Body3
import proofs.«423955_j37598143709627_1_alg».proof.Proof.KI.Body4
import proofs.«423955_j37598143709627_1_alg».proof.Proof.KI.Body5
import proofs.«423955_j37598143709627_1_alg».proof.Proof.KI.Body6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

theorem W4_keep (c : Dev nD) (b : Ref sig .tc) (hb : b ∉ hostOps2_W) :
    W4 m ρ c (Proc.devRef .tc b) = W3 m ρ c (Proc.devRef .tc b) :=
  StableHlo.after_of_writes_sub hostOps2 _ hostOps2_writes hb

theorem W6_keep (c : Dev nD) (b : Ref sig .tc) (hb : b ∉ hostOps3_W) :
    W6 m ρ c (Proc.devRef .tc b) = W5 m ρ c (Proc.devRef .tc b) :=
  StableHlo.after_of_writes_sub hostOps3 _ hostOps3_writes hb

theorem W9_keep (c : Dev nD) (b : Ref sig .tc) (hb : b ∉ hostOps5_W) :
    W9 m ρ c (Proc.devRef .tc b) = W8 m ρ c (Proc.devRef .tc b) :=
  StableHlo.after_of_writes_sub hostOps5 _ hostOps5_writes hb

/-- The valuation after a region differs from the one before it only at the region's output arrays. -/
theorem W5_in (c : Dev nD) (b : Ref sig .tc) (hb : ∀ w, (cfg2.win w).isOut = true → Pipeline.arrRef spec2 w ≠ b) :
    W5 m ρ c (Proc.devRef .tc b) = W4 m ρ c (Proc.devRef .tc b) := by
  by_cases h : ∃ w, Pipeline.arrRef spec2 w = b
  · obtain ⟨w, rfl⟩ := h
    exact (W5_arr m ρ c w).trans (((dat2 (V4 m ρ) c).arrAt_in w (Bool.eq_false_iff.mpr fun hw => hb w hw rfl) _).trans (A_eq2 (V4 m ρ) c w))
  · exact W5_of_ne m ρ c b fun w e => h ⟨w, e⟩

theorem W10_in (c : Dev nD) (b : Ref sig .tc) (hb : ∀ w, (cfg5.win w).isOut = true → Pipeline.arrRef spec5 w ≠ b) :
    W10 m ρ c (Proc.devRef .tc b) = W9 m ρ c (Proc.devRef .tc b) := by
  by_cases h : ∃ w, Pipeline.arrRef spec5 w = b
  · obtain ⟨w, rfl⟩ := h
    exact (W10_arr m ρ c w).trans (((dat5 (V9 m ρ) c).arrAt_in w (Bool.eq_false_iff.mpr fun hw => hb w hw rfl) _).trans (A_eq5 (V9 m ρ) c w))
  · exact W10_of_ne m ρ c b fun w e => h ⟨w, e⟩

theorem W11_in (c : Dev nD) (b : Ref sig .tc) (hb : ∀ w, (cfg6.win w).isOut = true → Pipeline.arrRef spec6 w ≠ b) :
    W11 m ρ c (Proc.devRef .tc b) = W10 m ρ c (Proc.devRef .tc b) := by
  by_cases h : ∃ w, Pipeline.arrRef spec6 w = b
  · obtain ⟨w, rfl⟩ := h
    exact (W11_arr m ρ c w).trans (((dat6 (V10 m ρ) c).arrAt_in w (Bool.eq_false_iff.mpr fun hw => hb w hw rfl) _).trans (A_eq6 (V10 m ρ) c w))
  · exact W11_of_ne m ρ c b fun w e => h ⟨w, e⟩

/-- A buffer that no host stretch writes and that is no region's output array ends as launched. -/
theorem W11_kept (c : Dev nD) (b : Ref sig .tc)
    (h : b ∉ hostOps0_W ∧ b ∉ hostOps2_W ∧ b ∉ hostOps3_W ∧ b ∉ hostOps5_W
      ∧ (∀ w, Pipeline.arrRef spec0 w ≠ b) ∧ (∀ w, Pipeline.arrRef spec1 w ≠ b)
      ∧ (∀ w, (cfg2.win w).isOut = true → Pipeline.arrRef spec2 w ≠ b)
      ∧ (∀ w, Pipeline.arrRef spec3 w ≠ b) ∧ (∀ w, Pipeline.arrRef spec4 w ≠ b)
      ∧ (∀ w, (cfg5.win w).isOut = true → Pipeline.arrRef spec5 w ≠ b)
      ∧ (∀ w, (cfg6.win w).isOut = true → Pipeline.arrRef spec6 w ≠ b)) :
    W11 m ρ c (Proc.devRef .tc b) = m ((c : Thread nD τ).loc b) :=
  (W11_in m ρ c b h.2.2.2.2.2.2.2.2.2.2).trans <| (W10_in m ρ c b h.2.2.2.2.2.2.2.2.2.1).trans <| (W9_keep m ρ c b h.2.2.2.1).trans <|
  (W8_of_ne m ρ c b h.2.2.2.2.2.2.2.2.1).trans <| (W7_of_ne m ρ c b h.2.2.2.2.2.2.2.1).trans <| (W6_keep m ρ c b h.2.2.1).trans <|
  (W5_in m ρ c b h.2.2.2.2.2.2.1).trans <| (W4_keep m ρ c b h.2.1).trans <| (W3_of_ne m ρ c b h.2.2.2.2.2.1).trans <|
  (W2_of_ne m ρ c b h.2.2.2.2.1).trans <| W1_keep m ρ c b h.1

def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V10 m ρ) c

abbrev 𝒱₀ : Variants := Variants.none

abbrev Lev : GSem nD τ sig → Finset Unit := fun _ => ∅
abbrev lev : GSem nD τ sig → Unit → ℕ := fun _ _ => 0

abbrev Ride (c : Dev nD) : sProp 𝕄 :=
  iprop((∃ r, prngReg c r) ∗ ∃ W, owes (c : Thread nD τ) (0 : CellTallies nD τ sig Unit) W)

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lev lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

abbrev Last (c : Dev nD) : sProp 𝕄 :=
  iprop(StableHlo.held (c : Thread nD τ) (Pipeline.ucRefs τ sig) (W11 m ρ c) ∗ ∃ r, prngReg c r)

set_option backward.isDefEq.respectTransparency.types false in

def region0 : Pipeline.RegionSeg (pcfgs (F := F)) adm (pdats m ρ) () defs₀ 𝒱₀ Lev lev 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ Lev lev 0 fun _ _ => rfl
  pre c := iprop(StableHlo.held (c : Thread nD τ) (Pipeline.ucRefs τ sig) (W1 m ρ c) ∗ Ride c)
  post c := iprop(StableHlo.held (c : Thread nD τ) (Pipeline.ucRefs τ sig) (W2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by

    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by

    refine BIBase.Entails.trans ?_ (hin0 (V1 m ρ) c)
    unfold Pipeline.ΦA
    iintro ⟨Hp, -, Hr⟩
    isplitl [Hr]; · iexact Hr
    iexact Hp
  hout c := by

    rw [Pipeline.ownSems0_none]
    refine (hout0 (V1 m ρ) c).trans ?_
    unfold Pipeline.ΦA
    iintro ⟨Hr, Hp⟩
    isplitl [Hp]; · iexact Hp
    isplitr; · iempintro
    iexact Hr
  hexit c := by

    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit_arr0 m ρ c) (exit_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def region1 : Pipeline.RegionSeg (pcfgs (F := F)) adm (pdats m ρ) () defs₀ 𝒱₀ Lev lev 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ Lev lev 1 fun _ _ => rfl
  pre c := iprop(StableHlo.held (c : Thread nD τ) (Pipeline.ucRefs τ sig) (W2 m ρ c) ∗ Ride c)
  post c := iprop(StableHlo.held (c : Thread nD τ) (Pipeline.ucRefs τ sig) (W3 m ρ c) ∗ Ride c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by

    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by

    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (exit_arr1 m ρ c) (exit_rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def region2 : Pipeline.RegionSeg (pcfgs (F := F)) adm (pdats m ρ) () defs₀ 𝒱₀ Lev lev 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ Lev lev 2 fun _ _ => rfl
  pre c := iprop(StableHlo.held (c : Thread nD τ) (Pipeline.ucRefs τ sig) (W4 m ρ c) ∗ Ride c)
  post c := iprop(StableHlo.held (c : Thread nD τ) (Pipeline.ucRefs τ sig) (W5 m ρ c) ∗ Ride c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by

    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by

    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (exit_arr2 m ρ c) (exit_rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def region3 : Pipeline.RegionSeg (pcfgs (F := F)) adm (pdats m ρ) () defs₀ 𝒱₀ Lev lev 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ Lev lev 3 fun _ _ => rfl
  pre c := iprop(StableHlo.held (c : Thread nD τ) (Pipeline.ucRefs τ sig) (W6 m ρ c) ∗ Ride c)
  post c := iprop(StableHlo.held (c : Thread nD τ) (Pipeline.ucRefs τ sig) (W7 m ρ c) ∗ Ride c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by

    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V6 m ρ) c)
    unfold Pipeline.ΦA
    iintro ⟨Hp, -, Hr⟩
    isplitl [Hr]; · iexact Hr
    iexact Hp
  hout c := by
    rw [Pipeline.ownSems0_none]
    refine (hout3 (V6 m ρ) c).trans ?_
    unfold Pipeline.ΦA
    iintro ⟨Hr, Hp⟩
    isplitl [Hp]; · iexact Hp
    isplitr; · iempintro
    iexact Hr
  hexit c := by

    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (exit_arr3 m ρ c) (exit_rest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def region4 : Pipeline.RegionSeg (pcfgs (F := F)) adm (pdats m ρ) () defs₀ 𝒱₀ Lev lev 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ Lev lev 4 fun _ _ => rfl
  pre c := iprop(StableHlo.held (c : Thread nD τ) (Pipeline.ucRefs τ sig) (W7 m ρ c) ∗ Ride c)
  post c := iprop(StableHlo.held (c : Thread nD τ) (Pipeline.ucRefs τ sig) (W8 m ρ c) ∗ Ride c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by

    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V7 m ρ) c)
    unfold Pipeline.ΦA
    iintro ⟨Hp, -, Hr⟩
    isplitl [Hr]; · iexact Hr
    iexact Hp
  hout c := by
    rw [Pipeline.ownSems0_none]
    refine (hout4 (V7 m ρ) c).trans ?_
    unfold Pipeline.ΦA
    iintro ⟨Hr, Hp⟩
    isplitl [Hp]; · iexact Hp
    isplitr; · iempintro
    iexact Hr
  hexit c := by

    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (exit_arr4 m ρ c) (exit_rest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def region5 : Pipeline.RegionSeg (pcfgs (F := F)) adm (pdats m ρ) () defs₀ 𝒱₀ Lev lev 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ Lev lev 5 fun _ _ => rfl
  pre c := iprop(StableHlo.held (c : Thread nD τ) (Pipeline.ucRefs τ sig) (W9 m ρ c) ∗ Ride c)
  post c := iprop(StableHlo.held (c : Thread nD τ) (Pipeline.ucRefs τ sig) (W10 m ρ c) ∗ Ride c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by

    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V9 m ρ) c)
    unfold Pipeline.ΦA
    iintro ⟨Hp, -, Hr⟩
    isplitl [Hr]; · iexact Hr
    iexact Hp
  hout c := by
    rw [Pipeline.ownSems0_none]
    refine (hout5 (V9 m ρ) c).trans ?_
    unfold Pipeline.ΦA
    iintro ⟨Hr, Hp⟩
    isplitl [Hp]; · iexact Hp
    isplitr; · iempintro
    iexact Hr
  hexit c := by

    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (exit_arr5 m ρ c) (exit_rest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def region6 : Pipeline.RegionSeg (pcfgs (F := F)) adm (pdats m ρ) () defs₀ 𝒱₀ Lev lev 6 where
  win := launch6.win.to₀
  block_pos := launch6.block_pos
  stage_whole := launch6.stage_whole
  K := PEmpty
  osem k := k.elim
  ho := Pipeline.OwnSemFacts.none _
  hbody c := (body_obligation6 (V10 m ρ) c).loose
  hwaits := Pipeline.hwaits_of_owed_zero _ _ _ _ Lev lev 6 fun _ _ => rfl
  pre c := iprop(StableHlo.held (c : Thread nD τ) (Pipeline.ucRefs τ sig) (W10 m ρ c) ∗ Ride c)
  post c := iprop(Last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V10 m ρ c)
  hentry c := by

    rw [Pipeline.ownSems0_none]
    have hsplit := Pipeline.arrays_of_unscopedBufs (p := 6) (pcfgs (F := F)) adm (pdats m ρ) launch6.win launch6.arr_whole c
      ((pdats m ρ 6 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (V10 m ρ) c)
    unfold Pipeline.ΦA
    iintro ⟨Hp, -, Hr⟩
    isplitl [Hr]; · iexact Hr
    iexact Hp
  hout c := by
    rw [Pipeline.ownSems0_none]
    refine (hout6 (V10 m ρ) c).trans ?_
    unfold Pipeline.ΦA
    iintro ⟨Hr, Hp⟩
    isplitl [Hp]; · iexact Hp
    isplitr; · iempintro
    iexact Hr
  hexit c := by

    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V10 m ρ c) (V11 m ρ c) ((pdats m ρ 6 c).arrAt · cfg6.N) (exit_arr6 m ρ c) (exit_rest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev items : List (Pipeline.Seg (pcfgs (F := F)) adm (pdats m ρ) () defs₀ 𝒱₀ Lev lev) :=
  [ .host (hostItem hostOps0 hostOps0_sub hostOps0_fresh (W0 m ρ)),
    .region (region0 m ρ),
    .region (region1 m ρ),
    .host (hostItem hostOps2 hostOps2_sub hostOps2_fresh (W3 m ρ)),
    .region (region2 m ρ),
    .host (hostItem hostOps3 hostOps3_sub hostOps3_fresh (W5 m ρ)),
    .region (region3 m ρ),
    .region (region4 m ρ),
    .host (hostItem hostOps5 hostOps5_sub hostOps5_fresh (W8 m ρ)),
    .region (region5 m ρ),
    .region (region6 m ρ) ]

theorem main_items (c : Dev nD) : main (F := F) c = Pipeline.Seg.run (items m ρ) := (main_chain c).trans (by chain_rfl)

set_option backward.isDefEq.respectTransparency.types false in

theorem run : θ_run defs (onTc (τ := τ) (main (F := F))) ⟨m, fun _ => 0, ρ⟩
    (fun r => ∀ c : Dev nD, ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ Lev lev m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Ride c)) (Tₙ := Last m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach Lev lev fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.Hand

end
-- ==== Proof.Spec.lean ====
import Idealize.ShloMosaic.Lib.ValueIdx

noncomputable section

open scoped BigOperators

namespace Cert.Spec

open Idealize.ShloMosaic Idealize.ShloMosaic.ValueIdx

def oh (a b : BitVec 32) : EReal := if a = b then 1 else 0

theorem oh_self (a : BitVec 32) : oh a a = 1 := if_pos rfl
theorem oh_ne {a b : BitVec 32} (h : a ≠ b) : oh a b = 0 := if_neg h

def gatherOH {E N d : ℕ} (src : (⟨2, ![E, 1]⟩ : Shape).Idx → BitVec 32) (x : (⟨2, ![N, d]⟩ : Shape).Idx → EReal) :
    (⟨2, ![E, d]⟩ : Shape).Idx → EReal :=
  fun j => ∑ n : Fin N, oh (src (ix2 (j 0 : Fin E) (0 : Fin 1))) (BitVec.ofNat 32 n.val) * x (ix2 n (j 1 : Fin d))

def scatterOH {E N d : ℕ} (dst : (⟨2, ![E, 1]⟩ : Shape).Idx → BitVec 32) (msg : (⟨2, ![E, d]⟩ : Shape).Idx → EReal) :
    (⟨2, ![N, d]⟩ : Shape).Idx → EReal :=
  fun j => ∑ e : Fin E, oh (dst (ix2 e (0 : Fin 1))) (BitVec.ofNat 32 (j 0 : Fin N).val) * msg (ix2 e (j 1 : Fin d))

def combine {N din dout : ℕ} (agg x : (⟨2, ![N, din]⟩ : Shape).Idx → EReal) (wl : (⟨2, ![din, dout]⟩ : Shape).Idx → EReal)
    (b : (⟨1, ![dout]⟩ : Shape).Idx → EReal) (wr : (⟨2, ![din, dout]⟩ : Shape).Idx → EReal) :
    (⟨2, ![N, dout]⟩ : Shape).Idx → EReal :=
  fun j => max (((∑ k : Fin din, agg (ix2 (j 0 : Fin N) k) * wl (ix2 k (j 1 : Fin dout))) + b (ix1 (j 1 : Fin dout)))
      + ∑ k : Fin din, x (ix2 (j 0 : Fin N) k) * wr (ix2 k (j 1 : Fin dout))) 0

def poolLin {N G d O : ℕ} (h : (⟨2, ![N, d]⟩ : Shape).Idx → EReal) (bid : (⟨2, ![N, 1]⟩ : Shape).Idx → BitVec 32)
    (w : (⟨2, ![d, O]⟩ : Shape).Idx → EReal) (b : (⟨1, ![O]⟩ : Shape).Idx → EReal) :
    (⟨2, ![G, O]⟩ : Shape).Idx → EReal :=
  fun j => (∑ k : Fin d, (∑ i : Fin N, oh (bid (ix2 i (0 : Fin 1))) (BitVec.ofNat 32 (j 0 : Fin G).val) * h (ix2 i k))
      * w (ix2 k (j 1 : Fin O))) + b (ix1 (j 1 : Fin O))

def meanAgg {E N d : ℕ} (dst : (⟨2, ![E, 1]⟩ : Shape).Idx → BitVec 32) (agg : (⟨2, ![N, d]⟩ : Shape).Idx → EReal) :
    (⟨2, ![N, d]⟩ : Shape).Idx → EReal :=
  fun j => Ideal.div (agg j)
    (max (scatterOH (N := N) dst (fun _ : (⟨2, ![E, 1]⟩ : Shape).Idx => (1 : EReal)) (ix2 (j 0 : Fin N) (0 : Fin 1))) 1)

def layer {E N din dout : ℕ} (src dst : (⟨2, ![E, 1]⟩ : Shape).Idx → BitVec 32) (h : (⟨2, ![N, din]⟩ : Shape).Idx → EReal)
    (wl : (⟨2, ![din, dout]⟩ : Shape).Idx → EReal) (b : (⟨1, ![dout]⟩ : Shape).Idx → EReal)
    (wr : (⟨2, ![din, dout]⟩ : Shape).Idx → EReal) : (⟨2, ![N, dout]⟩ : Shape).Idx → EReal :=
  combine (meanAgg dst (scatterOH (N := N) dst (gatherOH src h))) h wl b wr

def model {E N G d0 d1 O : ℕ} (src dst : (⟨2, ![E, 1]⟩ : Shape).Idx → BitVec 32) (bid : (⟨2, ![N, 1]⟩ : Shape).Idx → BitVec 32)
    (x : (⟨2, ![N, d0]⟩ : Shape).Idx → EReal)
    (w1l : (⟨2, ![d0, d1]⟩ : Shape).Idx → EReal) (b1 : (⟨1, ![d1]⟩ : Shape).Idx → EReal) (w1r : (⟨2, ![d0, d1]⟩ : Shape).Idx → EReal)
    (w2l : (⟨2, ![d1, d1]⟩ : Shape).Idx → EReal) (b2 : (⟨1, ![d1]⟩ : Shape).Idx → EReal) (w2r : (⟨2, ![d1, d1]⟩ : Shape).Idx → EReal)
    (wlin : (⟨2, ![d1, O]⟩ : Shape).Idx → EReal) (blin : (⟨1, ![O]⟩ : Shape).Idx → EReal) :
    (⟨2, ![G, O]⟩ : Shape).Idx → EReal :=
  poolLin (layer src dst (layer src dst x w1l b1 w1r) w2l b2 w2r) bid wlin blin

def rowCol {E : ℕ} (r : Fin 2) (ei : (⟨2, ![2, E]⟩ : Shape).Idx → BitVec 32) : (⟨2, ![E, 1]⟩ : Shape).Idx → BitVec 32 :=
  fun j => ei (ix2 r (j 0 : Fin E))

def vecCol {N : ℕ} (v : (⟨1, ![N]⟩ : Shape).Idx → BitVec 32) : (⟨2, ![N, 1]⟩ : Shape).Idx → BitVec 32 :=
  fun j => v (ix1 (j 0 : Fin N))

end Cert.Spec

end
-- ==== Proof.KI.Val0.lean ====
import proofs.«423955_j37598143709627_1_alg».proof.Proof.Gen.KernelIdeal.Launch
import proofs.«423955_j37598143709627_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«423955_j37598143709627_1_alg».proof.Proof.KI.Defs0
import proofs.«423955_j37598143709627_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

theorem gth0_word (u v : BitVec 32) :
    (FloatOps.sitofp (F := Ideal) .f32 ((IntOp.cmpi .eq u v).setWidth 32) : EReal) = Cert.Spec.oh u v := by
  show ((((BitVec.ofBool (u == v)).setWidth 32).toInt : ℝ) : EReal) = _
  unfold Cert.Spec.oh
  by_cases h : u = v
  · subst h
    have e : ((BitVec.ofBool (u == u)).setWidth 32).toInt = 1 := by rw [beq_self_eq_true]; decide
    rw [if_pos rfl, e]; simp
  · have hb : (u == v) = false := beq_eq_false_iff_ne.mpr h
    have e : ((BitVec.ofBool (u == v)).setWidth 32).toInt = 0 := by rw [hb]; decide
    rw [if_neg h, e]; simp

theorem gth0_lhs_axis0 (j : S2000x128.Idx) (k : dot_S2000x2000_S2000x128_S2000x128_1_0_0_1_n_n.contr.Idx) :
    ((dot_S2000x2000_S2000x128_S2000x128_1_0_0_1_n_n.lhsIdx j k (0 : Fin 2)) : ℕ) = (j (0 : Fin 2)).val := by
  simp [DotDims.lhsIdx, dot_S2000x2000_S2000x128_S2000x128_1_0_0_1_n_n]
  rfl

theorem gth0_lhs_axis1 (j : S2000x128.Idx) (k : dot_S2000x2000_S2000x128_S2000x128_1_0_0_1_n_n.contr.Idx) :
    ((dot_S2000x2000_S2000x128_S2000x128_1_0_0_1_n_n.lhsIdx j k (1 : Fin 2)) : ℕ) = (k ⟨0, by decide⟩).val :=
  DotDims.lhsIdx_val_of_single _ rfl j k

theorem gth0_rhs_axis0 (j : S2000x128.Idx) (k : dot_S2000x2000_S2000x128_S2000x128_1_0_0_1_n_n.contr.Idx) :
    ((dot_S2000x2000_S2000x128_S2000x128_1_0_0_1_n_n.rhsIdx j k (0 : Fin 2)) : ℕ) = (k ⟨0, by decide⟩).val :=
  DotDims.rhsIdx_val_of_single _ rfl j k

theorem gth0_rhs_axis1 (j : S2000x128.Idx) (k : dot_S2000x2000_S2000x128_S2000x128_1_0_0_1_n_n.contr.Idx) :
    ((dot_S2000x2000_S2000x128_S2000x128_1_0_0_1_n_n.rhsIdx j k (1 : Fin 2)) : ℕ) = (j (1 : Fin 2)).val := by
  simp [DotDims.rhsIdx, dot_S2000x2000_S2000x128_S2000x128_1_0_0_1_n_n]
  rfl

def gth0_W (i : grid0.Coords) (x0 : Vec Ideal S2000x1 .i32) : FVec Ideal S2000x2000 .bf16 :=
  truncf .bf16 (sitofp .f32 (extui 32 (cmpi .eq (broadcastTo S2000x2000 x0 broadcasts_S2000x1_S2000x2000)
    (addi (broadcast S2000x2000 (Scalar.muli (BitVec.ofNat 32 (i 1).val) 2000#32)) (iota .tc S2000x2000 32 [1] iota_S2000x2000_d1_w32)))
    natLt_1_32)) bitsLt_bf16_f32

theorem gth0_W_apply (i : grid0.Coords) (x0 : Vec Ideal S2000x1 .i32) (p k : Fin 2000) :
    gth0_W i x0 (ix2 p k) = Cert.Spec.oh (x0 (ix2 p (0 : Fin 1))) (BitVec.ofNat 32 ((i 1).val * 2000 + k.val)) := by
  show FloatOps.sitofp (F := Ideal) .f32 ((IntOp.cmpi .eq (broadcastTo S2000x2000 x0 broadcasts_S2000x1_S2000x2000 (ix2 p k))
    (IntOp.addi (Scalar.muli (BitVec.ofNat 32 (i 1).val) 2000#32) (iota .tc S2000x2000 32 [1] iota_S2000x2000_d1_w32 (ix2 p k)))).setWidth 32) = _
  rw [broadcastTo_apply x0 broadcasts_S2000x1_S2000x2000 (ix2 p k) (ix2 p (0 : Fin 1)) (fun a => by
      match a with
      | ⟨0, _⟩ => exact (if_neg (show ¬ (2000 : ℕ) = 1 by decide)).symm
      | ⟨1, _⟩ => exact (if_pos rfl).symm),
    iota_single_apply, gth0_word]
  congr 1
  show BitVec.ofNat 32 (i 1).val * BitVec.ofNat 32 2000 + BitVec.ofNat 32 k.val = _
  rw [BitVec.ofNat_add, BitVec.ofNat_mul]

theorem gth0_pay_eq (i : grid0.Coords) (x0 : Vec Ideal S2000x1 .i32) (x1 : FVec Ideal S2000x128 .bf16) (acc : FVec Ideal S2000x128 .f32) :
    k0_pay2 (F := Ideal) i x0 x1 acc
      = addf acc (matmul dot_S2000x2000_S2000x128_S2000x128_1_0_0_1_n_n none (gth0_W i x0) x1 (constant (F := Ideal) S2000x128 .f32 0x00000000#32)) := by
  unfold k0_pay2 gth0_W
  simp only [shapeCast_self]

theorem gth0_pay_apply (i : grid0.Coords) (x0 : Vec Ideal S2000x1 .i32) (x1 : FVec Ideal S2000x128 .bf16) (acc : FVec Ideal S2000x128 .f32)
    (p : Fin 2000) (q : Fin 128) :
    k0_pay2 (F := Ideal) i x0 x1 acc (ix2 p q)
      = acc (ix2 p q) + ∑ k : Fin 2000, Cert.Spec.oh (x0 (ix2 p (0 : Fin 1))) (BitVec.ofNat 32 ((i 1).val * 2000 + k.val)) * x1 (ix2 k q) := by
  rw [gth0_pay_eq]
  show acc (ix2 p q) + FloatOps.matmul dot_S2000x2000_S2000x128_S2000x128_1_0_0_1_n_n none (gth0_W i x0) x1 (constant (F := Ideal) S2000x128 .f32 0x00000000#32) (ix2 p q) = _
  rw [Ideal.matmul_constant_zero_apply]
  congr 1
  rw [← Equiv.sum_comp (contrEquiv1 dot_S2000x2000_S2000x128_S2000x128_1_0_0_1_n_n 2000 rfl rfl).symm]
  refine Finset.sum_congr rfl fun k _ => ?_
  have hl : dot_S2000x2000_S2000x128_S2000x128_1_0_0_1_n_n.lhsIdx (ix2 p q) ((contrEquiv1 dot_S2000x2000_S2000x128_S2000x128_1_0_0_1_n_n 2000 rfl rfl).symm k) = ix2 p k :=
    Shape.idx_ext₂ (gth0_lhs_axis0 _ _) ((gth0_lhs_axis1 _ _).trans (contrEquiv1_symm_val _ 2000 rfl rfl k))
  have hr : dot_S2000x2000_S2000x128_S2000x128_1_0_0_1_n_n.rhsIdx (ix2 p q) ((contrEquiv1 dot_S2000x2000_S2000x128_S2000x128_1_0_0_1_n_n 2000 rfl rfl).symm k) = ix2 k q :=
    Shape.idx_ext₂ ((gth0_rhs_axis0 _ _).trans (contrEquiv1_symm_val _ 2000 rfl rfl k)) (gth0_rhs_axis1 _ _)
  rw [hl, hr, gth0_W_apply]

theorem gth0_reset_apply (j : S2000x128.Idx) : k0_pay1 (F := Ideal) j = 0 := by
  unfold k0_pay1
  simp only [shapeCast_self]
  exact Ideal.ofBits_zero_f32

theorem gth0_coords (t : Fin grid0.N) : (grid0.coords t 0).val = t.val / 50 ∧ (grid0.coords t 1).val = t.val % 50 := by
  have hN : t.val < 10000 := t.isLt
  have h0 : grid0.stride 0 = 50 := by decide
  have h1 : grid0.stride 1 = 1 := by decide
  constructor
  · show t.val / grid0.stride 0 % 200 = _
    rw [h0]; omega
  · show t.val / grid0.stride 1 % 50 = _
    rw [h1]; omega

theorem gth0_word_toNat (n : ℕ) (h : n < 10000) : (BitVec.ofNat 32 n).toNat = n := by
  rw [BitVec.toNat_ofNat]
  exact Nat.mod_eq_of_lt (by have : (2 : ℕ) ^ 32 = 4294967296 := by norm_num
                             omega)

theorem gth0_index_src (t : Fin grid0.N) : win0_0.index t (0 : Fin 2) = t.val / 50 ∧ win0_0.index t (1 : Fin 2) = 0 := by
  have hN : t.val < 10000 := t.isLt
  obtain ⟨c0, c1⟩ := gth0_coords t
  constructor
  · show (BitVec.ofNat 32 (grid0.coords t 0).val).toNat = _
    rw [c0]; exact gth0_word_toNat _ (by omega)
  · rfl

theorem gth0_index_x (t : Fin grid0.N) : win0_1.index t (0 : Fin 2) = t.val % 50 ∧ win0_1.index t (1 : Fin 2) = 0 := by
  have hN : t.val < 10000 := t.isLt
  obtain ⟨c0, c1⟩ := gth0_coords t
  constructor
  · show (BitVec.ofNat 32 (grid0.coords t 1).val).toNat = _
    rw [c1]; exact gth0_word_toNat _ (by omega)
  · rfl

theorem gth0_index_out (t : Fin grid0.N) : win0_2.index t (0 : Fin 2) = t.val / 50 ∧ win0_2.index t (1 : Fin 2) = 0 := by
  have hN : t.val < 10000 := t.isLt
  obtain ⟨c0, c1⟩ := gth0_coords t
  constructor
  · show (BitVec.ofNat 32 (grid0.coords t 0).val).toNat = _
    rw [c0]; exact gth0_word_toNat _ (by omega)
  · rfl

theorem gth0_flush_out (t : Fin cfg0.N) : (cfg0.win 2).flush t = true ↔ t.val % 50 = 49 := by
  have hN : t.val < 10000 := t.isLt
  have hG : grid0.N = 10000 := by decide
  show win0_2.flush t = true ↔ _
  unfold Pipeline.Window.flush
  rw [show win0_2.isOut = true from rfl, Bool.true_and, Bool.or_eq_true, decide_eq_true_eq, decide_eq_true_eq]
  constructor
  · rintro (h | ⟨h, hne⟩)
    · omega
    · by_contra h49
      apply hne
      funext a
      match a with
      | ⟨0, _⟩ => show win0_2.index ⟨t.val + 1, h⟩ (0 : Fin 2) = win0_2.index t (0 : Fin 2)
                  rw [(gth0_index_out _).1, (gth0_index_out _).1]
                  show (t.val + 1) / 50 = t.val / 50
                  omega
      | ⟨1, _⟩ => show win0_2.index ⟨t.val + 1, h⟩ (1 : Fin 2) = win0_2.index t (1 : Fin 2)
                  rw [(gth0_index_out _).2, (gth0_index_out _).2]
  · intro h49
    by_cases hl : t.val + 1 = grid0.N
    · exact Or.inl hl
    · refine Or.inr ⟨by omega, fun e => ?_⟩
      have e0 := congrFun e (0 : Fin 2)
      rw [(gth0_index_out _).1, (gth0_index_out _).1] at e0
      have e0' : (t.val + 1) / 50 = t.val / 50 := e0
      omega

def gth0_srcAt (s : S400000x1.Idx → BitVec 32) (n : ℕ) : BitVec 32 :=
  if h : n < 400000 then s (ix2 (⟨n, h⟩ : Fin 400000) (0 : Fin 1)) else 0

def gth0_rowAt (x : S100000x128.Idx → EReal) (n q : ℕ) : EReal :=
  if h : n < 100000 ∧ q < 128 then x (ix2 (⟨n, h.1⟩ : Fin 100000) (⟨q, h.2⟩ : Fin 128)) else 0

section
variable (V : (c : Dev nD) → (b : Ref sig .tc) → Buf (Elt Ideal) ((c : Thread nD τ).loc b)) (c : Dev nD)

theorem gth0_src_blk (t : Fin cfg0.N) (p : Fin 2000) :
    (iblk0 (F := Ideal) V c 0 t : Vec Ideal S2000x1 .i32) (ix2 p (0 : Fin 1))
      = gth0_srcAt (V c main_v2) (t.val / 50 * 2000 + p.val) := by
  have hN : t.val < 10000 := t.isLt
  obtain ⟨e0, e1⟩ := gth0_index_src t
  unfold gth0_srcAt
  rw [dif_pos (show t.val / 50 * 2000 + p.val < 400000 by omega)]
  show V c main_v2 (((cfg0.win 0).blk t).view.emb (ix2 p (0 : Fin 1))) = _
  refine congrArg (V c main_v2) ?_
  funext a; apply Fin.ext
  match a with
  | ⟨0, _⟩ => show win0_0.index t (0 : Fin 2) * 2000 + 1 * p.val = t.val / 50 * 2000 + p.val
              rw [e0]; omega
  | ⟨1, _⟩ => show win0_0.index t (1 : Fin 2) * 1 + 1 * 0 = 0
              rw [e1]

theorem gth0_x_blk (t : Fin cfg0.N) (k : Fin 2000) (q : Fin 128) :
    (iblk0 (F := Ideal) V c 1 t : Vec Ideal S2000x128 .bf16) (ix2 k q)
      = gth0_rowAt (V c main_v12) (t.val % 50 * 2000 + k.val) q.val := by
  have hN : t.val < 10000 := t.isLt
  obtain ⟨e0, e1⟩ := gth0_index_x t
  unfold gth0_rowAt
  rw [dif_pos (show t.val % 50 * 2000 + k.val < 100000 ∧ q.val < 128 from ⟨by omega, q.isLt⟩)]
  show V c main_v12 (((cfg0.win 1).blk t).view.emb (ix2 k q)) = _
  refine congrArg (V c main_v12) ?_
  funext a; apply Fin.ext
  match a with
  | ⟨0, _⟩ => show win0_1.index t (0 : Fin 2) * 2000 + 1 * k.val = t.val % 50 * 2000 + k.val
              rw [e0]; omega
  | ⟨1, _⟩ => show win0_1.index t (1 : Fin 2) * 128 + 1 * q.val = q.val
              rw [e1]; omega

def gth0_term (s : S400000x1.Idx → BitVec 32) (x : S100000x128.Idx → EReal) (n : ℕ) (i : S2000x128.Idx) : EReal :=
  ∑ k : Fin 2000, Cert.Spec.oh (gth0_srcAt s (n / 50 * 2000 + (i 0).val)) (BitVec.ofNat 32 (n % 50 * 2000 + k.val))
    * gth0_rowAt x (n % 50 * 2000 + k.val) (i 1).val

theorem gth0_step (t : Fin cfg0.N) (acc : FVec Ideal S2000x128 .f32) (i : S2000x128.Idx) :
    k0_pay2 (F := Ideal) (grid0.coords t) (iblk0 V c 0 t) (iblk0 V c 1 t) acc i
      = acc i + gth0_term (V c main_v2) (V c main_v12) t.val i := by
  obtain ⟨p, q, rfl⟩ : ∃ (p : Fin 2000) (q : Fin 128), i = ix2 p q := ⟨i 0, i 1, eq_ix2 i⟩
  refine (gth0_pay_apply (grid0.coords t) (iblk0 V c 0 t) (iblk0 V c 1 t) acc p q).trans ?_
  unfold gth0_term
  refine congrArg (acc (ix2 p q) + ·) (Finset.sum_congr rfl fun k _ => ?_)
  exact congrArg₂ (· * ·)
    (congrArg₂ Cert.Spec.oh (gth0_src_blk V c t p) (congrArg (fun n => BitVec.ofNat 32 (n * 2000 + k.val)) (gth0_coords t).2))
    (gth0_x_blk V c t k q)

theorem gth0_acc_closed (t : Fin cfg0.N) (i : S2000x128.Idx) :
    acc0 (F := Ideal) V c t.val t.isLt i
      = ∑ s ∈ Finset.range (t.val % 50 + 1), gth0_term (V c main_v2) (V c main_v12) (50 * (t.val / 50) + s) i := by
  have hN : t.val < 10000 := t.isLt
  have h' : 50 * (t.val / 50) + t.val % 50 < cfg0.N := by
    show 50 * (t.val / 50) + t.val % 50 < 10000
    omega
  have h0 : ∀ (n : ℕ) (h : n < cfg0.N), n % 50 = 0 → acc0 (F := Ideal) V c n h
      = k0_pay2 (F := Ideal) (grid0.coords ⟨n, h⟩) (iblk0 V c 0 ⟨n, h⟩) (iblk0 V c 1 ⟨n, h⟩) (k0_pay1 (F := Ideal)) := by
    intro n h hm
    cases n with
    | zero => exact acc0_zero V c h
    | succ m => rw [acc0_succ, if_pos hm]
  have hs : ∀ (n : ℕ) (h : n + 1 < cfg0.N), ¬(n + 1) % 50 = 0 → acc0 (F := Ideal) V c (n + 1) h
      = k0_pay2 (F := Ideal) (grid0.coords ⟨n + 1, h⟩) (iblk0 V c 0 ⟨n + 1, h⟩) (iblk0 V c 1 ⟨n + 1, h⟩)
          (acc0 (F := Ideal) V c n (Nat.lt_of_succ_lt h)) := by
    intro n h hm
    rw [acc0_succ, if_neg hm]
  refine (congrFun (Pipeline.eq_accAt_of_mod (N := cfg0.N) (fun n h => acc0 (F := Ideal) V c n h) 50
      (fun n h => k0_pay2 (F := Ideal) (grid0.coords ⟨n, h⟩) (iblk0 V c 0 ⟨n, h⟩) (iblk0 V c 1 ⟨n, h⟩) (k0_pay1 (F := Ideal)))
      (fun n h a => k0_pay2 (F := Ideal) (grid0.coords ⟨n, h⟩) (iblk0 V c 0 ⟨n, h⟩) (iblk0 V c 1 ⟨n, h⟩) a)
      h0 hs (by decide) t.val t.isLt h') i).trans ?_
  refine (Pipeline.accAt_add_apply (ι := S2000x128.Idx) (β := EReal) _ _ (fun _ => 0)
      (gth0_term (V c main_v2) (V c main_v12)) (50 * (t.val / 50)) 49
      (fun h j => (gth0_step V c ⟨50 * (t.val / 50), h⟩ (k0_pay1 (F := Ideal)) j).trans (by rw [gth0_reset_apply]))
      (fun n h a j _ _ => gth0_step V c ⟨n, h⟩ a j)
      (t.val % 50) (by omega) h' i).trans ?_
  exact zero_add _

theorem gth0_sum_tiles {M : Type*} [AddCommMonoid M] (f : ℕ → M) (B : ℕ) :
    ∀ T : ℕ, ∑ s ∈ Finset.range T, ∑ k ∈ Finset.range B, f (s * B + k) = ∑ n ∈ Finset.range (T * B), f n
  | 0 => by simp
  | T + 1 => by
    rw [Finset.sum_range_succ, gth0_sum_tiles f B T, Nat.succ_mul, Finset.sum_range_add]

abbrev gth0_G : S400000x128.Idx → EReal :=
  Cert.Spec.gatherOH (E := 400000) (N := 100000) (d := 128) (V c main_v2) (V c main_v12)

theorem gth0_G_apply (e : ℕ) (he : e < 200) (p : Fin 2000) (q : Fin 128) (r : Fin 400000) (hr : r.val = e * 2000 + p.val) :
    gth0_G V c (ix2 r q)
      = ∑ s ∈ Finset.range 50, gth0_term (V c main_v2) (V c main_v12) (50 * e + s) (ix2 p q) := by
  have lhs : gth0_G V c (ix2 r q)
      = ∑ n : Fin 100000, (fun m : ℕ => Cert.Spec.oh (gth0_srcAt (V c main_v2) (e * 2000 + p.val)) (BitVec.ofNat 32 m)
          * gth0_rowAt (V c main_v12) m q.val) n.val := by
    show ∑ n : Fin 100000, Cert.Spec.oh (V c main_v2 (ix2 r (0 : Fin 1))) (BitVec.ofNat 32 n.val) * V c main_v12 (ix2 n q) = _
    refine Finset.sum_congr rfl fun n _ => ?_
    have e1 : gth0_srcAt (V c main_v2) (e * 2000 + p.val) = V c main_v2 (ix2 r (0 : Fin 1)) := by
      unfold gth0_srcAt
      rw [dif_pos (show e * 2000 + p.val < 400000 by omega)]
      exact congrArg (fun r' : Fin 400000 => V c main_v2 (ix2 r' (0 : Fin 1))) (Fin.ext hr.symm)
    have e2 : gth0_rowAt (V c main_v12) n.val q.val = V c main_v12 (ix2 n q) := by
      unfold gth0_rowAt
      rw [dif_pos ⟨n.isLt, q.isLt⟩]
    show _ = Cert.Spec.oh (gth0_srcAt (V c main_v2) (e * 2000 + p.val)) (BitVec.ofNat 32 n.val) * gth0_rowAt (V c main_v12) n.val q.val
    rw [e1, e2]
  rw [lhs, Fin.sum_univ_eq_sum_range (fun m : ℕ => Cert.Spec.oh (gth0_srcAt (V c main_v2) (e * 2000 + p.val)) (BitVec.ofNat 32 m)
          * gth0_rowAt (V c main_v12) m q.val) 100000,
    show (100000 : ℕ) = 50 * 2000 from rfl, ← gth0_sum_tiles _ 2000 50]
  refine Finset.sum_congr rfl fun s hs => ?_
  have hs' : s < 50 := Finset.mem_range.mp hs
  unfold gth0_term
  rw [show (50 * e + s) / 50 = e by omega, show (50 * e + s) % 50 = s by omega,
    ← Fin.sum_univ_eq_sum_range (fun k : ℕ => Cert.Spec.oh (gth0_srcAt (V c main_v2) (e * 2000 + p.val)) (BitVec.ofNat 32 (s * 2000 + k))
          * gth0_rowAt (V c main_v12) (s * 2000 + k) q.val) 2000]

theorem gth0_cut_out (t : Fin cfg0.N) (v : FVec Ideal S2000x128 .f32) (y : S2000x128.Idx) :
    (cfg0.win 2).cut (grid0.coords t) (k0_pay3 (F := Ideal) v) y = v y := rfl

theorem gth0_read_out (t : Fin cfg0.N) (g : S400000x128.Idx → EReal) (y : S2000x128.Idx) :
    ((cfg0.win 2).blk t).view.read (Elt Ideal) g y = g (((cfg0.win 2).blk t).view.emb y) := rfl

theorem gth0_flushed_eq (t : Fin cfg0.N) (hf : (cfg0.win 2).flush t = true) :
    (dat0 (F := Ideal) V c).flushed 2 t = ((cfg0.win 2).blk t).view.read (Elt Ideal) (gth0_G V c) := by
  have hN : t.val < 10000 := t.isLt
  have h49 : t.val % 50 = 49 := (gth0_flush_out t).mp hf
  obtain ⟨e0, e1⟩ := gth0_index_out t
  show (cfg0.win 2).cut (grid0.coords t) ((dat0 (F := Ideal) V c).after 2 t) = _
  rw [after0_2]
  funext y
  obtain ⟨p, q, rfl⟩ : ∃ (p : Fin 2000) (q : Fin 128), y = ix2 p q := ⟨y 0, y 1, eq_ix2 y⟩
  have hemb : ((cfg0.win 2).blk t).view.emb (ix2 p q)
      = ix2 (⟨t.val / 50 * 2000 + p.val, by omega⟩ : Fin 400000) q := by
    funext a; apply Fin.ext
    match a with
    | ⟨0, _⟩ => show win0_2.index t (0 : Fin 2) * 2000 + 1 * p.val = t.val / 50 * 2000 + p.val
                rw [e0]; omega
    | ⟨1, _⟩ => show win0_2.index t (1 : Fin 2) * 128 + 1 * q.val = q.val
                rw [e1]; omega
  refine (gth0_cut_out t (acc0 (F := Ideal) V c t.val t.isLt) (ix2 p q)).trans ?_
  refine Eq.trans ?_ (gth0_read_out t (gth0_G V c) (ix2 p q)).symm
  rw [hemb, gth0_G_apply V c (t.val / 50) (by omega) p q _ rfl, gth0_acc_closed V c t (ix2 p q), h49]

theorem gth0_mem_blk (t : Fin cfg0.N) (i : S400000x128.Idx) :
    i ∈ ((cfg0.win 2).blk t).view.set
      ↔ ∀ a : Fin 2, win0_2.index t a * S2000x128.size a ≤ (i a).val ∧ (i a).val < win0_2.index t a * S2000x128.size a + S2000x128.size a := by
  show i ∈ ((View.whole main_v13).slice (win0_2.rect t)).set ↔ _
  rw [View.set_slice_whole, Rect.mem_set_unit]
  exact Iff.rfl

theorem gth0_cover (i : S400000x128.Idx) :
    ∃ t : Fin cfg0.N, (cfg0.win 2).flush t = true ∧ i ∈ ((cfg0.win 2).blk t).view.set := by
  have hi0 : (i 0).val < 400000 := (i 0).isLt
  have hi1 : (i 1).val < 128 := (i 1).isLt
  have ht : (i 0).val / 2000 * 50 + 49 < cfg0.N := by
    show (i 0).val / 2000 * 50 + 49 < 10000
    omega
  refine ⟨⟨(i 0).val / 2000 * 50 + 49, ht⟩, (gth0_flush_out _).mpr (by show ((i 0).val / 2000 * 50 + 49) % 50 = 49; omega), ?_⟩
  rw [gth0_mem_blk]
  obtain ⟨e0, e1⟩ := gth0_index_out ⟨(i 0).val / 2000 * 50 + 49, ht⟩
  intro a
  match a with
  | ⟨0, _⟩ => show win0_2.index ⟨(i 0).val / 2000 * 50 + 49, ht⟩ (0 : Fin 2) * 2000 ≤ (i 0).val
                ∧ (i 0).val < win0_2.index ⟨(i 0).val / 2000 * 50 + 49, ht⟩ (0 : Fin 2) * 2000 + 2000
              rw [e0]
              show ((i 0).val / 2000 * 50 + 49) / 50 * 2000 ≤ (i 0).val ∧ (i 0).val < ((i 0).val / 2000 * 50 + 49) / 50 * 2000 + 2000
              omega
  | ⟨1, _⟩ => show win0_2.index ⟨(i 0).val / 2000 * 50 + 49, ht⟩ (1 : Fin 2) * 128 ≤ (i 1).val
                ∧ (i 1).val < win0_2.index ⟨(i 0).val / 2000 * 50 + 49, ht⟩ (1 : Fin 2) * 128 + 128
              rw [e1]; omega

end

theorem val0 (V : (c : Dev nD) → (b : Ref sig .tc) → Buf (Elt Ideal) ((c : Thread nD τ).loc b)) (c : Dev nD) :
    (dat0 (F := Ideal) V c).arrAt 2 cfg0.N = Cert.Spec.gatherOH (V c main_v2) (V c main_v12) :=
  (dat0 (F := Ideal) V c).arrAt_eq_of_cover 2 (gth0_G V c) (fun t hf => gth0_flushed_eq V c t hf) (gth0_cover)

end Cert.KernelIdeal.Hand

end
-- ==== Proof.KI.Val1.lean ====
import proofs.«423955_j37598143709627_1_alg».proof.Proof.Gen.KernelIdeal.Launch
import proofs.«423955_j37598143709627_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«423955_j37598143709627_1_alg».proof.Proof.KI.Defs1
import proofs.«423955_j37598143709627_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

local notation "𝕄" => MT nD τ sig Unit (Elt F) ℕ (UR sig nD τ) ℕ

theorem lhs_r1_axis0 (j : S2000x128.Idx) (k : dot_S2000x2000_S2000x128_S2000x128_0_0_1_1_n_n.contr.Idx) :
    ((dot_S2000x2000_S2000x128_S2000x128_0_0_1_1_n_n.lhsIdx j k (0 : Fin 2) : Fin _) : ℕ)
      = (k ⟨0, by rw [DotDims.rank_contr]; exact Nat.one_pos⟩ : ℕ) :=
  DotDims.lhsIdx_val_of_single dot_S2000x2000_S2000x128_S2000x128_0_0_1_1_n_n (cl := (0 : Fin 2)) rfl j k

theorem lhs_r1_axis1 (j : S2000x128.Idx) (k : dot_S2000x2000_S2000x128_S2000x128_0_0_1_1_n_n.contr.Idx) :
    ((dot_S2000x2000_S2000x128_S2000x128_0_0_1_1_n_n.lhsIdx j k (1 : Fin 2) : Fin _) : ℕ) = (j (0 : Fin 2) : ℕ) := by
  unfold DotDims.lhsIdx
  rw [dif_neg (show ¬(1 : Fin S2000x2000.rank) ∈ dot_S2000x2000_S2000x128_S2000x128_0_0_1_1_n_n.lhsBatch from List.not_mem_nil),
    dif_pos (show (1 : Fin S2000x2000.rank) ∈ dot_S2000x2000_S2000x128_S2000x128_0_0_1_1_n_n.lhsNonContracting from List.mem_singleton.mpr rfl)]
  rfl

theorem rhs_r1_axis0 (j : S2000x128.Idx) (k : dot_S2000x2000_S2000x128_S2000x128_0_0_1_1_n_n.contr.Idx) :
    ((dot_S2000x2000_S2000x128_S2000x128_0_0_1_1_n_n.rhsIdx j k (0 : Fin 2) : Fin _) : ℕ)
      = (k ⟨0, by rw [DotDims.rank_contr]; exact Nat.one_pos⟩ : ℕ) :=
  DotDims.rhsIdx_val_of_single dot_S2000x2000_S2000x128_S2000x128_0_0_1_1_n_n (cr := (0 : Fin 2)) rfl j k

theorem rhs_r1_axis1 (j : S2000x128.Idx) (k : dot_S2000x2000_S2000x128_S2000x128_0_0_1_1_n_n.contr.Idx) :
    ((dot_S2000x2000_S2000x128_S2000x128_0_0_1_1_n_n.rhsIdx j k (1 : Fin 2) : Fin _) : ℕ) = (j (1 : Fin 2) : ℕ) := by
  unfold DotDims.rhsIdx
  rw [dif_neg (show ¬(1 : Fin S2000x128.rank) ∈ dot_S2000x2000_S2000x128_S2000x128_0_0_1_1_n_n.rhsBatch from List.not_mem_nil),
    dif_pos (show (1 : Fin S2000x128.rank) ∈ dot_S2000x2000_S2000x128_S2000x128_0_0_1_1_n_n.rhsNonContracting from List.mem_singleton.mpr rfl)]
  rfl

theorem matmul_r1_apply (A : FVec Ideal S2000x2000 .bf16) (B : FVec Ideal S2000x128 .bf16) (p : Fin 2000) (q : Fin 128) :
    matmul (F := Ideal) dot_S2000x2000_S2000x128_S2000x128_0_0_1_1_n_n none A B
        (constant (F := Ideal) S2000x128 .f32 0x00000000#32) (ix2 p q)
      = ∑ k : Fin 2000, A (ix2 k p) * B (ix2 k q) := by
  refine (Ideal.matmul_constant_zero_apply dot_S2000x2000_S2000x128_S2000x128_0_0_1_1_n_n none A B (ix2 p q)).trans ?_
  rw [← Equiv.sum_comp (contrEquiv1 dot_S2000x2000_S2000x128_S2000x128_0_0_1_1_n_n 2000 rfl rfl).symm]
  refine Finset.sum_congr rfl fun k _ => ?_
  have hk := contrEquiv1_symm_val dot_S2000x2000_S2000x128_S2000x128_0_0_1_1_n_n 2000 rfl rfl k
  have hA : dot_S2000x2000_S2000x128_S2000x128_0_0_1_1_n_n.lhsIdx (ix2 p q)
      ((contrEquiv1 dot_S2000x2000_S2000x128_S2000x128_0_0_1_1_n_n 2000 rfl rfl).symm k) = ix2 k p :=
    Shape.idx_ext₂ ((lhs_r1_axis0 _ _).trans hk) (lhs_r1_axis1 _ _)
  have hB : dot_S2000x2000_S2000x128_S2000x128_0_0_1_1_n_n.rhsIdx (ix2 p q)
      ((contrEquiv1 dot_S2000x2000_S2000x128_S2000x128_0_0_1_1_n_n 2000 rfl rfl).symm k) = ix2 k q :=
    Shape.idx_ext₂ ((rhs_r1_axis0 _ _).trans hk) (rhs_r1_axis1 _ _)
  rw [hA, hB]

theorem weight_r1_eq (a b : BitVec 32) :
    (FloatOps.sitofp (F := Ideal) .f32 ((IntOp.cmpi .eq a b).setWidth 32) : Ideal .f32) = Cert.Spec.oh a b := by
  show (((((IntOp.cmpi .eq a b).setWidth 32).toInt : ℤ) : ℝ) : EReal) = Cert.Spec.oh a b
  by_cases h : a = b
  · subst h
    have hc : IntOp.cmpi .eq a a = 1#1 := by simp [IntOp.cmpi]
    rw [hc, Cert.Spec.oh_self]
    have h1 : ((1#1 : BitVec 1).setWidth 32).toInt = 1 := by decide
    rw [h1]; norm_num
  · have hb : (a == b) = false := beq_eq_false_iff_ne.mpr h
    have hc : IntOp.cmpi .eq a b = 0#1 := by
      show BitVec.ofBool (a == b) = 0#1
      rw [hb]; rfl
    rw [hc, Cert.Spec.oh_ne h]
    have h0 : ((0#1 : BitVec 1).setWidth 32).toInt = 0 := by decide
    rw [h0]; norm_num

theorem nodeWord_r1_eq (n p : ℕ) :
    IntOp.addi (Scalar.muli (BitVec.ofNat 32 n) 2000#32) (BitVec.ofNat 32 p) = BitVec.ofNat 32 (n * 2000 + p) := by
  show BitVec.ofNat 32 n * BitVec.ofNat 32 2000 + BitVec.ofNat 32 p = _
  rw [BitVec.ofNat_add, BitVec.ofNat_mul]

theorem pay_r1_apply (i : grid1.Coords) (x0 : Vec Ideal S2000x1 .i32) (x1 : Vec Ideal S2000x128 .bf16)
    (a : Vec Ideal S2000x128 .f32) (n : ℕ) (hn : (i 0).val = n) (p : Fin 2000) (q : Fin 128) :
    k1_pay2 (F := Ideal) i x0 x1 a (ix2 p q)
      = a (ix2 p q) + ∑ k : Fin 2000,
          Cert.Spec.oh (x0 (ix2 k (0 : Fin 1))) (BitVec.ofNat 32 (n * 2000 + p.val)) * x1 (ix2 k q) := by
  subst hn
  unfold k1_pay2
  simp only [shapeCast_self]
  rw [addf_apply, matmul_r1_apply]
  refine congrArg (a (ix2 p q) + ·) (Finset.sum_congr rfl fun k _ => ?_)
  refine congrArg (· * x1 (ix2 k q)) ?_
  rw [truncf_apply, sitofp_apply, extui_apply]
  refine (weight_r1_eq _ _).trans ?_
  have hl : broadcastTo S2000x2000 x0 broadcasts_S2000x1_S2000x2000 (ix2 k p) = x0 (ix2 k (0 : Fin 1)) :=
    broadcastTo_apply x0 broadcasts_S2000x1_S2000x2000 (ix2 k p) (ix2 k (0 : Fin 1)) fun ax =>
      match ax with
      | ⟨0, _⟩ => rfl
      | ⟨1, _⟩ => rfl
  have hr : addi (broadcast S2000x2000 (Scalar.muli (BitVec.ofNat 32 (i 0).val) 2000#32))
        (iota .tc S2000x2000 32 [1] iota_S2000x2000_d1_w32) (ix2 k p)
      = BitVec.ofNat 32 ((i 0).val * 2000 + p.val) := by
    show IntOp.addi (Scalar.muli (BitVec.ofNat 32 (i 0).val) 2000#32)
        (iota .tc S2000x2000 32 [1] iota_S2000x2000_d1_w32 (ix2 k p)) = _
    rw [iota_single_apply]
    exact nodeWord_r1_eq _ _
  exact congrArg₂ Cert.Spec.oh hl hr

variable (V : (c : Dev nD) → (b : Ref sig .tc) → Buf (Elt Ideal) ((c : Thread nD τ).loc b))

theorem point_r1_lt (t : Fin cfg1.N) : t.val < 10000 := Nat.lt_of_lt_of_eq t.isLt N_1

theorem coords_r1_0 (t : Fin cfg1.N) : (grid1.coords t 0).val = t.val / 200 := by
  have hN := point_r1_lt t
  show t.val / grid1.stride (0 : Fin 2) % 50 = _
  have hs : grid1.stride (0 : Fin 2) = 200 := by decide
  rw [hs]; omega

theorem coords_r1_1 (t : Fin cfg1.N) : (grid1.coords t 1).val = t.val % 200 := by
  show t.val / grid1.stride (1 : Fin 2) % 200 = _
  have hs : grid1.stride (1 : Fin 2) = 1 := by decide
  rw [hs, Nat.div_one]

theorem dstIndex_r1 (t : Fin cfg1.N) : win1_0.index t = ![t.val % 200, 0] := by
  have h1 := coords_r1_1 t
  have hlt : t.val % 200 < 2 ^ 32 := by omega
  funext a
  match a with
  | ⟨0, _⟩ =>
    show (BitVec.ofNat 32 (grid1.coords t 1).val).toNat = t.val % 200
    rw [h1, BitVec.toNat_ofNat]; exact Nat.mod_eq_of_lt hlt
  | ⟨1, _⟩ => rfl

theorem msgIndex_r1 (t : Fin cfg1.N) : win1_1.index t = ![t.val % 200, 0] := by
  have h1 := coords_r1_1 t
  have hlt : t.val % 200 < 2 ^ 32 := by omega
  funext a
  match a with
  | ⟨0, _⟩ =>
    show (BitVec.ofNat 32 (grid1.coords t 1).val).toNat = t.val % 200
    rw [h1, BitVec.toNat_ofNat]; exact Nat.mod_eq_of_lt hlt
  | ⟨1, _⟩ => rfl

theorem outIndex_r1 (t : Fin cfg1.N) : win1_2.index t = ![t.val / 200, 0] := by
  have h0 := coords_r1_0 t
  have hN := point_r1_lt t
  have hlt : t.val / 200 < 2 ^ 32 := by omega
  funext a
  match a with
  | ⟨0, _⟩ =>
    show (BitVec.ofNat 32 (grid1.coords t 0).val).toNat = t.val / 200
    rw [h0, BitVec.toNat_ofNat]; exact Nat.mod_eq_of_lt hlt
  | ⟨1, _⟩ => rfl

theorem writesBack_r1_iff (t : Fin cfg1.N) : (cfg1.win 2).flush t = true ↔ t.val % 200 = 199 := by
  have hN := point_r1_lt t
  show win1_2.flush t = true ↔ _
  unfold Pipeline.Window.flush
  rw [show win1_2.isOut = true from rfl, Bool.true_and, Bool.or_eq_true, decide_eq_true_eq, decide_eq_true_eq]
  have hNN : grid1.N = 10000 := N_1
  constructor
  · rintro (h | ⟨h, hne⟩)
    · omega
    · by_contra h199
      refine hne ?_
      rw [outIndex_r1, outIndex_r1]
      show ![(t.val + 1) / 200, 0] = ![t.val / 200, 0]
      rw [show (t.val + 1) / 200 = t.val / 200 by omega]
  · intro h199
    by_cases hl : t.val + 1 = grid1.N
    · exact .inl hl
    · refine .inr ⟨by omega, fun he => ?_⟩
      have h0 := congrFun he (0 : Fin 2)
      rw [outIndex_r1, outIndex_r1] at h0
      have h0' : (t.val + 1) / 200 = t.val / 200 := h0
      omega

abbrev dst_r1 (c : Dev nD) : (⟨2, ![400000, 1]⟩ : Shape).Idx → BitVec 32 := V c main_v5

abbrev msg_r1 (c : Dev nD) : (⟨2, ![400000, 128]⟩ : Shape).Idx → EReal := V c main_v13

abbrev out_r1 (c : Dev nD) : (⟨2, ![100000, 128]⟩ : Shape).Idx → EReal :=
  Cert.Spec.scatterOH (dst_r1 V c) (msg_r1 V c)

def edgeTerm_r1 (dst : (⟨2, ![400000, 1]⟩ : Shape).Idx → BitVec 32) (msg : (⟨2, ![400000, 128]⟩ : Shape).Idx → EReal)
    (w : BitVec 32) (q : Fin 128) (x : ℕ) : EReal :=
  if h : x < 400000 then Cert.Spec.oh (dst (ix2 (⟨x, h⟩ : Fin 400000) (0 : Fin 1))) w * msg (ix2 (⟨x, h⟩ : Fin 400000) q)
  else 0

theorem dstBlock_r1_apply (c : Dev nD) (t : Fin cfg1.N) (k : Fin 2000) (h : t.val % 200 * 2000 + k.val < 400000) :
    iblk1 (F := Ideal) V c 0 t (ix2 k (0 : Fin 1))
      = dst_r1 V c (ix2 (⟨t.val % 200 * 2000 + k.val, h⟩ : Fin 400000) (0 : Fin 1)) := by
  show dst_r1 V c (((cfg1.win 0).blk t).view.emb (ix2 k (0 : Fin 1))) = _
  refine congrArg (dst_r1 V c) (Shape.idx_ext₂ ?_ ?_)
  · show win1_0.index t (0 : Fin 2) * 2000 + 1 * k.val = t.val % 200 * 2000 + k.val
    rw [dstIndex_r1]; show t.val % 200 * 2000 + 1 * k.val = _; omega
  · show win1_0.index t (1 : Fin 2) * 1 + 1 * 0 = 0
    rw [dstIndex_r1]; rfl

theorem msgBlock_r1_apply (c : Dev nD) (t : Fin cfg1.N) (k : Fin 2000) (q : Fin 128) (h : t.val % 200 * 2000 + k.val < 400000) :
    iblk1 (F := Ideal) V c 1 t (ix2 k q) = msg_r1 V c (ix2 (⟨t.val % 200 * 2000 + k.val, h⟩ : Fin 400000) q) := by
  show msg_r1 V c (((cfg1.win 1).blk t).view.emb (ix2 k q)) = _
  refine congrArg (msg_r1 V c) (Shape.idx_ext₂ ?_ ?_)
  · show win1_1.index t (0 : Fin 2) * 2000 + 1 * k.val = t.val % 200 * 2000 + k.val
    rw [msgIndex_r1]; show t.val % 200 * 2000 + 1 * k.val = _; omega
  · show win1_1.index t (1 : Fin 2) * 128 + 1 * q.val = q.val
    rw [msgIndex_r1]; show 0 * 128 + 1 * q.val = q.val; omega

theorem zero_r1_apply (r : Fin 2000) (q : Fin 128) : (k1_pay1 (F := Ideal)) (ix2 r q) = 0 := by
  unfold k1_pay1
  simp only [shapeCast_self]
  exact Ideal.ofBits_zero_f32

theorem tileStep_r1 (c : Dev nD) (t : Fin cfg1.N) (a : Vec Ideal S2000x128 .f32) (r : Fin 2000) (q : Fin 128) :
    k1_pay2 (F := Ideal) (grid1.coords t) (iblk1 V c 0 t) (iblk1 V c 1 t) a (ix2 r q)
      = a (ix2 r q) + ∑ x ∈ Finset.range 2000,
          edgeTerm_r1 (dst_r1 V c) (msg_r1 V c) (BitVec.ofNat 32 (t.val / 200 * 2000 + r.val)) q (t.val % 200 * 2000 + x) := by
  refine (pay_r1_apply (grid1.coords t) (iblk1 V c 0 t) (iblk1 V c 1 t) a (t.val / 200) (coords_r1_0 t) r q).trans ?_
  refine congrArg (a (ix2 r q) + ·) ?_
  rw [← Fin.sum_univ_eq_sum_range (fun x => edgeTerm_r1 (dst_r1 V c) (msg_r1 V c)
    (BitVec.ofNat 32 (t.val / 200 * 2000 + r.val)) q (t.val % 200 * 2000 + x)) 2000]
  refine Finset.sum_congr rfl fun k _ => ?_
  have hk : t.val % 200 * 2000 + k.val < 400000 := by have := k.isLt; omega
  unfold edgeTerm_r1
  rw [dif_pos hk, dstBlock_r1_apply V c t k hk, msgBlock_r1_apply V c t k q hk]

theorem acc_r1_closed (c : Dev nD) (n : ℕ) : ∀ (h : n < cfg1.N) (r : Fin 2000) (q : Fin 128),
    acc1 (F := Ideal) V c n h (ix2 r q)
      = ∑ x ∈ Finset.range ((n % 200 + 1) * 2000),
          edgeTerm_r1 (dst_r1 V c) (msg_r1 V c) (BitVec.ofNat 32 (n / 200 * 2000 + r.val)) q x := by
  induction n with
  | zero =>
    intro h r q
    rw [acc1_zero]
    refine (tileStep_r1 V c ⟨0, h⟩ _ r q).trans ?_
    rw [zero_r1_apply, zero_add]
    show ∑ x ∈ Finset.range 2000, edgeTerm_r1 (dst_r1 V c) (msg_r1 V c) (BitVec.ofNat 32 (0 / 200 * 2000 + r.val)) q (0 % 200 * 2000 + x) = _
    simp only [Nat.zero_mod, Nat.zero_div, Nat.zero_mul, Nat.zero_add, Nat.one_mul]
  | succ n ih =>
    intro h r q
    rw [acc1_succ]
    refine (tileStep_r1 V c ⟨n + 1, h⟩ _ r q).trans ?_
    show _ + ∑ x ∈ Finset.range 2000, edgeTerm_r1 (dst_r1 V c) (msg_r1 V c)
      (BitVec.ofNat 32 ((n + 1) / 200 * 2000 + r.val)) q ((n + 1) % 200 * 2000 + x) = _
    by_cases hm : (n + 1) % 200 = 0
    · rw [if_pos hm, zero_r1_apply, zero_add, hm]
      simp only [Nat.zero_mul, Nat.zero_add, Nat.one_mul]
    · rw [if_neg hm, ih (Nat.lt_of_succ_lt h) r q]
      have h1 : (n + 1) / 200 = n / 200 := by omega
      have h2 : (n + 1) % 200 = n % 200 + 1 := by omega
      rw [h1, h2, show (n % 200 + 1 + 1) * 2000 = (n % 200 + 1) * 2000 + 2000 by ring, Finset.sum_range_add]

theorem outBlock_r1_apply (G : (⟨2, ![100000, 128]⟩ : Shape).Idx → EReal) (t : Fin cfg1.N) (r : Fin 2000) (q : Fin 128)
    (h : t.val / 200 * 2000 + r.val < 100000) :
    ((cfg1.win 2).blk t).view.read (Elt Ideal) G (ix2 r q)
      = G (ix2 (⟨t.val / 200 * 2000 + r.val, h⟩ : Fin 100000) q) := by
  show G (((cfg1.win 2).blk t).view.emb (ix2 r q)) = _
  refine congrArg G (Shape.idx_ext₂ ?_ ?_)
  · show win1_2.index t (0 : Fin 2) * 2000 + 1 * r.val = t.val / 200 * 2000 + r.val
    rw [outIndex_r1]; show t.val / 200 * 2000 + 1 * r.val = _; omega
  · show win1_2.index t (1 : Fin 2) * 128 + 1 * q.val = q.val
    rw [outIndex_r1]; show 0 * 128 + 1 * q.val = q.val; omega

theorem scatter_r1_apply (dst : (⟨2, ![400000, 1]⟩ : Shape).Idx → BitVec 32)
    (msg : (⟨2, ![400000, 128]⟩ : Shape).Idx → EReal) (a : Fin 100000) (q : Fin 128) :
    Cert.Spec.scatterOH dst msg (ix2 a q)
      = ∑ e : Fin 400000, Cert.Spec.oh (dst (ix2 e (0 : Fin 1))) (BitVec.ofNat 32 a.val) * msg (ix2 e q) := rfl

theorem flushedAt_r1 (c : Dev nD) (t : Fin cfg1.N) (r : Fin 2000) (q : Fin 128) :
    (dat1 (F := Ideal) V c).flushed 2 t (ix2 r q) = acc1 (F := Ideal) V c t.val t.isLt (ix2 r q) := by
  show (dat1 (F := Ideal) V c).after 2 t (ix2 r q) = _
  rw [after1_2]

theorem accLast_r1 (c : Dev nD) (t : Fin cfg1.N) (h199 : t.val % 200 = 199) (r : Fin 2000) (q : Fin 128)
    (hrow : t.val / 200 * 2000 + r.val < 100000) :
    acc1 (F := Ideal) V c t.val t.isLt (ix2 r q)
      = out_r1 V c (ix2 (⟨t.val / 200 * 2000 + r.val, hrow⟩ : Fin 100000) q) := by
  rw [acc_r1_closed V c t.val t.isLt r q, h199, show (199 + 1) * 2000 = 400000 by norm_num]
  refine Eq.trans ?_ (scatter_r1_apply (dst_r1 V c) (msg_r1 V c) ⟨t.val / 200 * 2000 + r.val, hrow⟩ q).symm
  rw [← Fin.sum_univ_eq_sum_range (fun x => edgeTerm_r1 (dst_r1 V c) (msg_r1 V c)
    (BitVec.ofNat 32 (t.val / 200 * 2000 + r.val)) q x) 400000]
  refine Finset.sum_congr rfl fun e _ => ?_
  unfold edgeTerm_r1
  rw [dif_pos e.isLt]

theorem flushed_r1_eq (c : Dev nD) (t : Fin cfg1.N) (ht : (cfg1.win 2).flush t = true) :
    (dat1 (F := Ideal) V c).flushed 2 t = ((cfg1.win 2).blk t).view.read (Elt Ideal) (out_r1 V c) := by
  have h199 : t.val % 200 = 199 := (writesBack_r1_iff t).mp ht
  have hN := point_r1_lt t
  funext j
  obtain ⟨r, q, rfl⟩ : ∃ (r : Fin 2000) (q : Fin 128), j = ix2 r q := ⟨j 0, j 1, eq_ix2 j⟩
  have hr := r.isLt
  have hrow : t.val / 200 * 2000 + r.val < 100000 := by omega
  exact (flushedAt_r1 V c t r q).trans
    ((accLast_r1 V c t h199 r q hrow).trans (outBlock_r1_apply (out_r1 V c) t r q hrow).symm)

theorem mem_blk_r1 (t : Fin cfg1.N) (i : S100000x128.Idx) :
    i ∈ ((cfg1.win 2).blk t).view.set
      ↔ ∀ a : Fin 2, win1_2.index t a * S2000x128.size a ≤ (i a).val
          ∧ (i a).val < win1_2.index t a * S2000x128.size a + S2000x128.size a := by
  show i ∈ ((View.whole main_v14).slice (win1_2.rect t)).set ↔ _
  rw [View.set_slice_whole, Rect.mem_set_unit]
  exact Iff.rfl

theorem cover_r1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have htN : (i 0).val / 2000 * 200 + 199 < cfg1.N := by
    rw [show cfg1.N = 10000 from N_1]; omega
  refine ⟨⟨(i 0).val / 2000 * 200 + 199, htN⟩, (writesBack_r1_iff _).mpr (by show ((i 0).val / 2000 * 200 + 199) % 200 = 199; omega), ?_⟩
  rw [mem_blk_r1, outIndex_r1]
  intro a
  match a with
  | ⟨0, _⟩ =>
    show ((i 0).val / 2000 * 200 + 199) / 200 * 2000 ≤ (i 0).val
      ∧ (i 0).val < ((i 0).val / 2000 * 200 + 199) / 200 * 2000 + 2000
    omega
  | ⟨1, _⟩ =>
    show 0 * 128 ≤ (i 1).val ∧ (i 1).val < 0 * 128 + 128
    omega

theorem val1 (c : Dev nD) :
    (dat1 (F := Ideal) V c).arrAt 2 cfg1.N = Cert.Spec.scatterOH (V c main_v5) (V c main_v13) :=
  (dat1 (F := Ideal) V c).arrAt_eq_of_cover 2 (out_r1 V c) (fun t ht => flushed_r1_eq V c t ht) cover_r1

end Cert.KernelIdeal.Hand

end
-- ==== Proof.KI.Val2.lean ====
import proofs.«423955_j37598143709627_1_alg».proof.Proof.Gen.KernelIdeal.Launch
import proofs.«423955_j37598143709627_1_alg».proof.Proof.Gen.KernelIdeal.Skeleton
import proofs.«423955_j37598143709627_1_alg».proof.Proof.KI.Defs2
import proofs.«423955_j37598143709627_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

namespace Combine2

theorem lhs_rowblock_0 (j : S2000x256.Idx) (k : dot_S2000x128_S128x256_S2000x256_1_0_0_1_n_n.contr.Idx) :
    (dot_S2000x128_S128x256_S2000x256_1_0_0_1_n_n.lhsIdx j k 0).val = (j 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

theorem lhs_rowblock_1 (j : S2000x256.Idx) (k : dot_S2000x128_S128x256_S2000x256_1_0_0_1_n_n.contr.Idx) :
    (dot_S2000x128_S128x256_S2000x256_1_0_0_1_n_n.lhsIdx j k 1).val = (k ⟨0, by decide⟩).val :=
  dot_S2000x128_S128x256_S2000x256_1_0_0_1_n_n.lhsIdx_val_of_single (cl := 1) rfl j k

theorem rhs_rowblock_0 (j : S2000x256.Idx) (k : dot_S2000x128_S128x256_S2000x256_1_0_0_1_n_n.contr.Idx) :
    (dot_S2000x128_S128x256_S2000x256_1_0_0_1_n_n.rhsIdx j k 0).val = (k ⟨0, by decide⟩).val :=
  dot_S2000x128_S128x256_S2000x256_1_0_0_1_n_n.rhsIdx_val_of_single (cr := 0) rfl j k

theorem rhs_rowblock_1 (j : S2000x256.Idx) (k : dot_S2000x128_S128x256_S2000x256_1_0_0_1_n_n.contr.Idx) :
    (dot_S2000x128_S128x256_S2000x256_1_0_0_1_n_n.rhsIdx j k 1).val = (j 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

theorem rowblock_mul_apply (A : FVec Ideal S2000x128 .bf16) (B : FVec Ideal S128x256 .bf16) (p : Fin 2000) (q : Fin 256) :
    matmul (F := Ideal) dot_S2000x128_S128x256_S2000x256_1_0_0_1_n_n none A B (constant (F := Ideal) S2000x256 .f32 0x00000000#32) (ix2 p q)
      = ∑ k : Fin 128, A (ix2 p k) * B (ix2 k q) := by
  show FloatOps.matmul dot_S2000x128_S128x256_S2000x256_1_0_0_1_n_n none A B _ (ix2 p q) = _
  rw [Ideal.matmul_constant_zero_apply,
    ← Equiv.sum_comp (contrEquiv1 dot_S2000x128_S128x256_S2000x256_1_0_0_1_n_n 128 rfl rfl).symm]
  refine Finset.sum_congr rfl fun k _ => ?_
  have ck := contrEquiv1_symm_val dot_S2000x128_S128x256_S2000x256_1_0_0_1_n_n 128 rfl rfl k
  have hl : dot_S2000x128_S128x256_S2000x256_1_0_0_1_n_n.lhsIdx (ix2 p q)
      ((contrEquiv1 dot_S2000x128_S128x256_S2000x256_1_0_0_1_n_n 128 rfl rfl).symm k) = ix2 p k := by
    funext ax; apply Fin.ext
    match ax with
    | ⟨0, _⟩ => exact lhs_rowblock_0 _ _
    | ⟨1, _⟩ => exact (lhs_rowblock_1 _ _).trans ck
  have hr : dot_S2000x128_S128x256_S2000x256_1_0_0_1_n_n.rhsIdx (ix2 p q)
      ((contrEquiv1 dot_S2000x128_S128x256_S2000x256_1_0_0_1_n_n 128 rfl rfl).symm k) = ix2 k q := by
    funext ax; apply Fin.ext
    match ax with
    | ⟨0, _⟩ => exact (rhs_rowblock_0 _ _).trans ck
    | ⟨1, _⟩ => exact rhs_rowblock_1 _ _
  rw [hl, hr]

theorem combine_pay_apply (a x : Vec Ideal S2000x128 .f32) (wl : Vec Ideal S128x256 .bf16) (b : Vec Ideal S256 .f32)
    (wr : Vec Ideal S128x256 .bf16) (p : Fin 2000) (q : Fin 256) :
    k2_pay1 (F := Ideal) a x wl b wr (ix2 p q)
      = max (((∑ k : Fin 128, a (ix2 p k) * wl (ix2 k q)) + b (ix1 q)) + ∑ k : Fin 128, x (ix2 p k) * wr (ix2 k q)) 0 := by
  unfold k2_pay1
  simp only [shapeCast_self]
  show max ((matmul (F := Ideal) dot_S2000x128_S128x256_S2000x256_1_0_0_1_n_n none (truncf .bf16 a bitsLt_bf16_f32) wl
          (constant (F := Ideal) S2000x256 .f32 0x00000000#32) (ix2 p q)
        + broadcastTo S2000x256 (shapeCast S1x256 b shapeCasts_S256_S1x256) broadcasts_S1x256_S2000x256 (ix2 p q))
      + matmul (F := Ideal) dot_S2000x128_S128x256_S2000x256_1_0_0_1_n_n none (truncf .bf16 x bitsLt_bf16_f32) wr
          (constant (F := Ideal) S2000x256 .f32 0x00000000#32) (ix2 p q))
      (Ideal.ofBits .f32 0x00000000#32) = _
  rw [rowblock_mul_apply, rowblock_mul_apply, broadcastTo_1b_ab_apply, shapeCast_a_1a_apply, Ideal.ofBits_zero_f32]
  rfl

section
variable (V : (c : Dev nD) → (b : Ref sig .tc) → Buf (Elt Ideal) ((c : Thread nD τ).loc b))

abbrev aggArr (c : Dev nD) : S100000x128.Idx → EReal := V c main_v23
abbrev featArr (c : Dev nD) : S100000x128.Idx → EReal := V c main_arg0
abbrev wlArr (c : Dev nD) : S128x256.Idx → EReal := V c main_v7
abbrev biasArr (c : Dev nD) : S256.Idx → EReal := V c main_arg4
abbrev wrArr (c : Dev nD) : S128x256.Idx → EReal := V c main_v8

abbrev aggTile (c : Dev nD) (t : Fin cfg2.N) : Vec Ideal S2000x128 .f32 := iblk2 V c 0 t
abbrev featTile (c : Dev nD) (t : Fin cfg2.N) : Vec Ideal S2000x128 .f32 := iblk2 V c 1 t
abbrev wlTile (c : Dev nD) (t : Fin cfg2.N) : Vec Ideal S128x256 .bf16 := iblk2 V c 2 t
abbrev biasTile (c : Dev nD) (t : Fin cfg2.N) : Vec Ideal S256 .f32 := iblk2 V c 3 t
abbrev wrTile (c : Dev nD) (t : Fin cfg2.N) : Vec Ideal S128x256 .bf16 := iblk2 V c 4 t

theorem tile_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem out_tile_written : ∀ t : Fin cfg2.N, (cfg2.win 5).flush t = true :=
  (by decide +kernel : ∀ t : Fin grid2.N, win2_5.flush t = true)

theorem points_50 : cfg2.N = 50 := by decide

theorem agg_tile (c : Dev nD) (t : Fin cfg2.N) (p : Fin 2000) (k : Fin 128) (r : Fin 100000) (hr : r.val = t.val * 2000 + p.val) :
    aggTile V c t (ix2 p k) = aggArr V c (ix2 r k) := by
  obtain ⟨e0, e1, -⟩ := tile_index t
  unfold aggTile iblk2
  rw [View.read_apply]
  show V c main_v23 _ = V c main_v23 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

theorem x_tile (c : Dev nD) (t : Fin cfg2.N) (p : Fin 2000) (k : Fin 128) (r : Fin 100000) (hr : r.val = t.val * 2000 + p.val) :
    featTile V c t (ix2 p k) = featArr V c (ix2 r k) := by
  obtain ⟨-, -, e0, e1, -⟩ := tile_index t
  unfold featTile iblk2
  rw [View.read_apply]
  show V c main_arg0 _ = V c main_arg0 _
  congr 1
  funext a
  apply Fin.ext
  match a with
  | ⟨0, _⟩ => show win2_1.index t (0 : Fin 2) * 2000 + 1 * p.val = r.val; rw [e0, hr]; omega
  | ⟨1, _⟩ => show win2_1.index t (1 : Fin 2) * 128 + 1 * k.val = k.val; rw [e1]; omega

theorem wl_tile (c : Dev nD) (t : Fin cfg2.N) (k : Fin 128) (q : Fin 256) :
    wlTile V c t (ix2 k q) = wlArr V c (ix2 k q) := by
  obtain ⟨-, -, -, -, e0, e1, -⟩ := tile_index t
  unfold wlTile iblk2
  rw [View.read_apply]
  show V c main_v7 _ = V c main_v7 _
  congr 1
  funext a
  apply Fin.ext
  match a with
  | ⟨0, _⟩ => show win2_2.index t (0 : Fin 2) * 128 + 1 * k.val = k.val; rw [e0]; omega
  | ⟨1, _⟩ => show win2_2.index t (1 : Fin 2) * 256 + 1 * q.val = q.val; rw [e1]; omega

theorem bias_tile (c : Dev nD) (t : Fin cfg2.N) (q : Fin 256) :
    biasTile V c t (ix1 q) = biasArr V c (ix1 q) := by
  obtain ⟨-, -, -, -, -, -, e0, -⟩ := tile_index t
  unfold biasTile iblk2
  rw [View.read_apply]
  show V c main_arg4 _ = V c main_arg4 _
  congr 1
  funext a
  apply Fin.ext
  match a with
  | ⟨0, _⟩ => show win2_3.index t (0 : Fin 1) * 256 + 1 * q.val = q.val; rw [e0]; omega

theorem wr_tile (c : Dev nD) (t : Fin cfg2.N) (k : Fin 128) (q : Fin 256) :
    wrTile V c t (ix2 k q) = wrArr V c (ix2 k q) := by
  obtain ⟨-, -, -, -, -, -, -, e0, e1, -⟩ := tile_index t
  unfold wrTile iblk2
  rw [View.read_apply]
  show V c main_v8 _ = V c main_v8 _
  congr 1
  funext a
  apply Fin.ext
  match a with
  | ⟨0, _⟩ => show win2_4.index t (0 : Fin 2) * 128 + 1 * k.val = k.val; rw [e0]; omega
  | ⟨1, _⟩ => show win2_4.index t (1 : Fin 2) * 256 + 1 * q.val = q.val; rw [e1]; omega

theorem out_tile_emb (t : Fin cfg2.N) (p : Fin 2000) (q : Fin 256) (r : Fin 100000) (hr : r.val = t.val * 2000 + p.val) :
    ((cfg2.win 5).blk t).view.emb (ix2 p q) = (ix2 r q : S100000x256.Idx) := by
  obtain ⟨-, -, -, -, -, -, -, -, -, e0, e1⟩ := tile_index t
  funext a
  apply Fin.ext
  match a with
  | ⟨0, _⟩ => show win2_5.index t (0 : Fin 2) * 2000 + 1 * p.val = r.val; rw [e0, hr]; omega
  | ⟨1, _⟩ => show win2_5.index t (1 : Fin 2) * 256 + 1 * q.val = q.val; rw [e1]; omega

abbrev combined (c : Dev nD) : S100000x256.Idx → EReal :=
  Cert.Spec.combine (aggArr V c) (featArr V c) (wlArr V c) (biasArr V c) (wrArr V c)

set_option maxHeartbeats 400000 in

theorem flushed_combine (c : Dev nD) (t : Fin cfg2.N) :
    (dat2 (F := Ideal) V c).flushed 5 t = ((cfg2.win 5).blk t).view.read (Elt Ideal) (combined V c) := by
  show (cfg2.win 5).cut (grid2.coords t) ((dat2 (F := Ideal) V c).after 5 t) = _
  rw [after2_5]
  funext j
  obtain ⟨p, q, rfl⟩ : ∃ (p : Fin 2000) (q : Fin 256), j = ix2 p q := ⟨j 0, j 1, eq_ix2 j⟩
  have hlt : t.val < 50 := lt_of_lt_of_eq t.isLt points_50
  obtain ⟨r, hr⟩ : ∃ r : Fin 100000, r.val = t.val * 2000 + p.val := ⟨⟨t.val * 2000 + p.val, by have := p.isLt; omega⟩, rfl⟩
  show k2_pay1 (F := Ideal) (aggTile V c t) (featTile V c t) (wlTile V c t) (biasTile V c t) (wrTile V c t) (ix2 p q) = _
  refine (combine_pay_apply (aggTile V c t) (featTile V c t) (wlTile V c t) (biasTile V c t) (wrTile V c t) p q).trans ?_
  rw [View.read_apply, out_tile_emb t p q r hr]
  show _ = max (((∑ k : Fin 128, aggArr V c (ix2 r k) * wlArr V c (ix2 k q))
        + biasArr V c (ix1 q))
      + ∑ k : Fin 128, featArr V c (ix2 r k) * wrArr V c (ix2 k q)) 0
  have e0 : ∀ k : Fin 128, aggTile V c t (ix2 p k) = aggArr V c (ix2 r k) :=
    fun k => agg_tile V c t p k r hr
  have e1 : ∀ k : Fin 128, featTile V c t (ix2 p k) = featArr V c (ix2 r k) :=
    fun k => x_tile V c t p k r hr
  have e2 : ∀ k : Fin 128, wlTile V c t (ix2 k q) = wlArr V c (ix2 k q) :=
    fun k => wl_tile V c t k q
  have e4 : ∀ k : Fin 128, wrTile V c t (ix2 k q) = wrArr V c (ix2 k q) :=
    fun k => wr_tile V c t k q
  rw [Finset.sum_congr rfl fun k _ => congrArg₂ (· * ·) (e0 k) (e2 k),
    Finset.sum_congr rfl fun k _ => congrArg₂ (· * ·) (e1 k) (e4 k), bias_tile V c t q]

theorem mem_out_tile (t : Fin cfg2.N) (i : S100000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v24).slice (win2_5.rect t)).set ↔ _
  rw [View.set_slice_whole, Rect.mem_set_unit]
  exact Iff.rfl

theorem rows_covered (i : S100000x256.Idx) :
    ∃ t : Fin cfg2.N, (cfg2.win 5).flush t = true ∧ i ∈ ((cfg2.win 5).blk t).view.set := by
  have h0 : (i 0).val < 100000 := (i 0).isLt
  have h1 : (i 1).val < 256 := (i 1).isLt
  obtain ⟨t, ht⟩ : ∃ t : Fin cfg2.N, t.val = (i 0).val / 2000 := ⟨⟨(i 0).val / 2000, by rw [points_50]; omega⟩, rfl⟩
  obtain ⟨-, -, -, -, -, -, -, -, -, e0, e1⟩ := tile_index t
  refine ⟨t, out_tile_written t, ?_⟩
  rw [mem_out_tile]
  intro a
  match a with
  | ⟨0, _⟩ => show win2_5.index t (0 : Fin 2) * 2000 ≤ (i 0).val ∧ (i 0).val < win2_5.index t (0 : Fin 2) * 2000 + 2000; rw [e0, ht]; omega
  | ⟨1, _⟩ => show win2_5.index t (1 : Fin 2) * 256 ≤ (i 1).val ∧ (i 1).val < win2_5.index t (1 : Fin 2) * 256 + 256; rw [e1]; omega

end

end Combine2

theorem val2 (V : (c : Dev nD) → (b : Ref sig .tc) → Buf (Elt Ideal) ((c : Thread nD τ).loc b)) (c : Dev nD) :
    (dat2 (F := Ideal) V c).arrAt 5 cfg2.N = Cert.Spec.combine (V c main_v23) (V c main_arg0) (V c main_v7) (V c main_arg4) (V c main_v8) :=
  (dat2 (F := Ideal) V c).arrAt_eq_of_cover 5 (Combine2.combined V c) (fun t _ => Combine2.flushed_combine V c t) Combine2.rows_covered

end Cert.KernelIdeal.Hand

end
-- ==== Proof.KI.Val6.lean ====
import proofs.«423955_j37598143709627_1_alg».proof.Proof.Gen.KernelIdeal.Launch
import proofs.«423955_j37598143709627_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«423955_j37598143709627_1_alg».proof.Proof.KI.Defs6
import proofs.«423955_j37598143709627_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

theorem sitofp_cmpi_eq (u v : BitVec 32) :
    (FloatOps.sitofp .f32 ((IntOp.cmpi .eq u v).setWidth 32) : Ideal .f32) = Cert.Spec.oh u v := by
  unfold Cert.Spec.oh
  by_cases h : u = v
  · subst h
    rw [if_pos rfl]
    have e : IntOp.cmpi .eq u u = 1#1 := by simp [IntOp.cmpi]
    rw [e]
    show (((((1#1 : BitVec 1).setWidth 32).toInt : ℤ) : ℝ) : EReal) = 1
    rw [show ((1#1 : BitVec 1).setWidth 32).toInt = 1 from by decide]
    simp
  · rw [if_neg h]
    have hb : (u == v) = false := beq_eq_false_iff_ne.mpr h
    have e : IntOp.cmpi .eq u v = 0#1 := by simp [IntOp.cmpi, hb]
    rw [e]
    show (((((0#1 : BitVec 1).setWidth 32).toInt : ℤ) : ℝ) : EReal) = 0
    rw [show ((0#1 : BitVec 1).setWidth 32).toInt = 0 from by decide]
    simp

theorem bcast_col_apply (x : IVec S2000x1 32) (r g : Fin 2000) :
    broadcastTo S2000x2000 x broadcasts_S2000x1_S2000x2000 (ix2 r g) = x (ix2 r (0 : Fin 1)) := by
  refine broadcastTo_apply x broadcasts_S2000x1_S2000x2000 (ix2 r g) (ix2 r (0 : Fin 1)) fun ax => ?_
  match ax with
  | ⟨0, _⟩ => rfl
  | ⟨1, _⟩ => rfl

theorem iota1_apply (r g : Fin 2000) :
    iota .tc S2000x2000 32 [1] iota_S2000x2000_d1_w32 (ix2 r g) = BitVec.ofNat 32 g.val :=
  iota_single_apply .tc S2000x2000 32 1 iota_S2000x2000_d1_w32 (ix2 r g)

theorem pool_lhs_0 (g : Fin 2000) (k : Fin 256) (q : dot_S2000x2000_S2000x256_S2000x256_0_0_1_1_n_n.contr.Idx) :
    ((dot_S2000x2000_S2000x256_S2000x256_0_0_1_1_n_n.lhsIdx (ix2 g k) q (0 : Fin 2) : Fin _) : ℕ)
      = (q ⟨0, by decide⟩ : ℕ) :=
  DotDims.lhsIdx_val_of_single dot_S2000x2000_S2000x256_S2000x256_0_0_1_1_n_n (cl := (0 : Fin 2)) rfl (ix2 g k) q

theorem pool_lhs_1 (g : Fin 2000) (k : Fin 256) (q : dot_S2000x2000_S2000x256_S2000x256_0_0_1_1_n_n.contr.Idx) :
    ((dot_S2000x2000_S2000x256_S2000x256_0_0_1_1_n_n.lhsIdx (ix2 g k) q (1 : Fin 2) : Fin _) : ℕ) = g.val := by
  simp [DotDims.lhsIdx, dot_S2000x2000_S2000x256_S2000x256_0_0_1_1_n_n]; rfl

theorem pool_rhs_0 (g : Fin 2000) (k : Fin 256) (q : dot_S2000x2000_S2000x256_S2000x256_0_0_1_1_n_n.contr.Idx) :
    ((dot_S2000x2000_S2000x256_S2000x256_0_0_1_1_n_n.rhsIdx (ix2 g k) q (0 : Fin 2) : Fin _) : ℕ)
      = (q ⟨0, by decide⟩ : ℕ) :=
  DotDims.rhsIdx_val_of_single dot_S2000x2000_S2000x256_S2000x256_0_0_1_1_n_n (cr := (0 : Fin 2)) rfl (ix2 g k) q

theorem pool_rhs_1 (g : Fin 2000) (k : Fin 256) (q : dot_S2000x2000_S2000x256_S2000x256_0_0_1_1_n_n.contr.Idx) :
    ((dot_S2000x2000_S2000x256_S2000x256_0_0_1_1_n_n.rhsIdx (ix2 g k) q (1 : Fin 2) : Fin _) : ℕ) = k.val := by
  simp [DotDims.rhsIdx, dot_S2000x2000_S2000x256_S2000x256_0_0_1_1_n_n]; rfl

theorem pool_dot_apply (A : FVec Ideal S2000x2000 .bf16) (B : FVec Ideal S2000x256 .bf16) (g : Fin 2000) (k : Fin 256) :
    matmul (F := Ideal) dot_S2000x2000_S2000x256_S2000x256_0_0_1_1_n_n none A B (constant (F := Ideal) S2000x256 .f32 0x00000000#32) (ix2 g k)
      = ∑ r : Fin 2000, A (ix2 r g) * B (ix2 r k) := by
  show FloatOps.matmul dot_S2000x2000_S2000x256_S2000x256_0_0_1_1_n_n none A B _ (ix2 g k) = _
  rw [Ideal.matmul_constant_zero_apply,
    ← Equiv.sum_comp (contrEquiv1 dot_S2000x2000_S2000x256_S2000x256_0_0_1_1_n_n 2000 rfl rfl).symm]
  refine Finset.sum_congr rfl fun r _ => ?_
  have c := contrEquiv1_symm_val dot_S2000x2000_S2000x256_S2000x256_0_0_1_1_n_n 2000 rfl rfl r
  have l : dot_S2000x2000_S2000x256_S2000x256_0_0_1_1_n_n.lhsIdx (ix2 g k)
      ((contrEquiv1 dot_S2000x2000_S2000x256_S2000x256_0_0_1_1_n_n 2000 rfl rfl).symm r) = ix2 r g := by
    funext ax; apply Fin.ext
    match ax with
    | ⟨0, _⟩ => exact (pool_lhs_0 g k _).trans c
    | ⟨1, _⟩ => exact pool_lhs_1 g k _
  have rr : dot_S2000x2000_S2000x256_S2000x256_0_0_1_1_n_n.rhsIdx (ix2 g k)
      ((contrEquiv1 dot_S2000x2000_S2000x256_S2000x256_0_0_1_1_n_n 2000 rfl rfl).symm r) = ix2 r k := by
    funext ax; apply Fin.ext
    match ax with
    | ⟨0, _⟩ => exact (pool_rhs_0 g k _).trans c
    | ⟨1, _⟩ => exact pool_rhs_1 g k _
  rw [l, rr]

theorem k6_pay2_apply (v3 : Vec Ideal S2000x256 .f32) (v6 : Vec Ideal S2000x1 .i32) (v15 : Vec Ideal S2000x256 .f32)
    (g : Fin 2000) (k : Fin 256) :
    k6_pay2 (F := Ideal) v3 v6 v15 (ix2 g k)
      = v15 (ix2 g k) + ∑ r : Fin 2000, Cert.Spec.oh (v6 (ix2 r (0 : Fin 1))) (BitVec.ofNat 32 g.val) * v3 (ix2 r k) := by
  unfold k6_pay2
  simp only [shapeCast_self]
  rw [addf_apply, pool_dot_apply]
  refine congrArg (v15 (ix2 g k) + ·) (Finset.sum_congr rfl fun r _ => ?_)
  rw [truncf_apply, truncf_apply, sitofp_apply, extui_apply]
  show (FloatOps.sitofp .f32 ((IntOp.cmpi .eq (broadcastTo S2000x2000 v6 broadcasts_S2000x1_S2000x2000 (ix2 r g))
      (iota .tc S2000x2000 32 [1] iota_S2000x2000_d1_w32 (ix2 r g))).setWidth 32) : Ideal .f32) * v3 (ix2 r k) = _
  rw [bcast_col_apply, iota1_apply, sitofp_cmpi_eq]

theorem lin_lhs_0 (g : Fin 2000) (o : Fin 12) (q : dot_S2000x256_S256x12_S2000x12_1_0_0_1_n_n.contr.Idx) :
    ((dot_S2000x256_S256x12_S2000x12_1_0_0_1_n_n.lhsIdx (ix2 g o) q (0 : Fin 2) : Fin _) : ℕ) = g.val := by
  simp [DotDims.lhsIdx, dot_S2000x256_S256x12_S2000x12_1_0_0_1_n_n]; rfl

theorem lin_lhs_1 (g : Fin 2000) (o : Fin 12) (q : dot_S2000x256_S256x12_S2000x12_1_0_0_1_n_n.contr.Idx) :
    ((dot_S2000x256_S256x12_S2000x12_1_0_0_1_n_n.lhsIdx (ix2 g o) q (1 : Fin 2) : Fin _) : ℕ)
      = (q ⟨0, by decide⟩ : ℕ) :=
  DotDims.lhsIdx_val_of_single dot_S2000x256_S256x12_S2000x12_1_0_0_1_n_n (cl := (1 : Fin 2)) rfl (ix2 g o) q

theorem lin_rhs_0 (g : Fin 2000) (o : Fin 12) (q : dot_S2000x256_S256x12_S2000x12_1_0_0_1_n_n.contr.Idx) :
    ((dot_S2000x256_S256x12_S2000x12_1_0_0_1_n_n.rhsIdx (ix2 g o) q (0 : Fin 2) : Fin _) : ℕ)
      = (q ⟨0, by decide⟩ : ℕ) :=
  DotDims.rhsIdx_val_of_single dot_S2000x256_S256x12_S2000x12_1_0_0_1_n_n (cr := (0 : Fin 2)) rfl (ix2 g o) q

theorem lin_rhs_1 (g : Fin 2000) (o : Fin 12) (q : dot_S2000x256_S256x12_S2000x12_1_0_0_1_n_n.contr.Idx) :
    ((dot_S2000x256_S256x12_S2000x12_1_0_0_1_n_n.rhsIdx (ix2 g o) q (1 : Fin 2) : Fin _) : ℕ) = o.val := by
  simp [DotDims.rhsIdx, dot_S2000x256_S256x12_S2000x12_1_0_0_1_n_n]; rfl

theorem lin_dot_apply (A : FVec Ideal S2000x256 .bf16) (W : FVec Ideal S256x12 .bf16) (g : Fin 2000) (o : Fin 12) :
    matmul (F := Ideal) dot_S2000x256_S256x12_S2000x12_1_0_0_1_n_n none A W (constant (F := Ideal) S2000x12 .f32 0x00000000#32) (ix2 g o)
      = ∑ k : Fin 256, A (ix2 g k) * W (ix2 k o) := by
  show FloatOps.matmul dot_S2000x256_S256x12_S2000x12_1_0_0_1_n_n none A W _ (ix2 g o) = _
  rw [Ideal.matmul_constant_zero_apply,
    ← Equiv.sum_comp (contrEquiv1 dot_S2000x256_S256x12_S2000x12_1_0_0_1_n_n 256 rfl rfl).symm]
  refine Finset.sum_congr rfl fun k _ => ?_
  have c := contrEquiv1_symm_val dot_S2000x256_S256x12_S2000x12_1_0_0_1_n_n 256 rfl rfl k
  have l : dot_S2000x256_S256x12_S2000x12_1_0_0_1_n_n.lhsIdx (ix2 g o)
      ((contrEquiv1 dot_S2000x256_S256x12_S2000x12_1_0_0_1_n_n 256 rfl rfl).symm k) = ix2 g k := by
    funext ax; apply Fin.ext
    match ax with
    | ⟨0, _⟩ => exact lin_lhs_0 g o _
    | ⟨1, _⟩ => exact (lin_lhs_1 g o _).trans c
  have rr : dot_S2000x256_S256x12_S2000x12_1_0_0_1_n_n.rhsIdx (ix2 g o)
      ((contrEquiv1 dot_S2000x256_S256x12_S2000x12_1_0_0_1_n_n 256 rfl rfl).symm k) = ix2 k o := by
    funext ax; apply Fin.ext
    match ax with
    | ⟨0, _⟩ => exact (lin_rhs_0 g o _).trans c
    | ⟨1, _⟩ => exact lin_rhs_1 g o _
  rw [l, rr]

theorem k6_pay3_apply (v23 : Vec Ideal S2000x256 .f32) (v25 : Vec Ideal S256x12 .bf16) (v28 : Vec Ideal S12 .f32)
    (g : Fin 2000) (o : Fin 12) :
    k6_pay3 (F := Ideal) v23 v25 v28 (ix2 g o)
      = (∑ k : Fin 256, v23 (ix2 g k) * v25 (ix2 k o)) + v28 (ix1 o) := by
  unfold k6_pay3
  simp only [shapeCast_self]
  rw [addf_apply, lin_dot_apply, broadcastTo_1b_ab_apply, shapeCast_a_1a_apply]
  refine congrArg (· + v28 (ix1 o)) (Finset.sum_congr rfl fun k _ => ?_)
  rw [truncf_apply]

theorem k6_pay1_apply (j : S2000x256.Idx) : k6_pay1 (F := Ideal) j = 0 := by
  unfold k6_pay1
  simp only [shapeCast_self]
  rw [broadcast_apply]
  exact Ideal.ofBits_zero_f32

section
variable (V : (c : Dev nD) → (b : Ref sig .tc) → Buf (Elt Ideal) ((c : Thread nD τ).loc b))

theorem idx6_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 1) = 0
    ∧ win6_4.index t (0 : Fin 2) = 0 ∧ win6_4.index t (1 : Fin 2) = 0 :=
  (by decide +kernel : ∀ t : Fin grid6.N, _)

theorem flush6_last : ∀ t : Fin cfg6.N, (cfg6.win 4).flush t = true ↔ t.val % 50 = 49 :=
  (by decide +kernel : ∀ t : Fin grid6.N, win6_4.flush t = true ↔ t.val % 50 = 49)

theorem iblk6_0_apply (c : Dev nD) (t : Fin cfg6.N) (r : Fin 2000) (k : Fin 256) (i : Fin 100000)
    (hi : i.val = 2000 * t.val + r.val) :
    (iblk6 V c 0 t : Vec Ideal S2000x256 .f32) (ix2 r k) = (V c main_v37 : S100000x256.Idx → EReal) (ix2 i k) := by
  obtain ⟨e0, e1, -⟩ := idx6_facts t
  unfold iblk6
  rw [View.read_apply]
  show V c main_v37 _ = V c main_v37 _
  congr 1
  funext a
  apply Fin.ext
  match a with
  | ⟨0, _⟩ => show win6_0.index t (0 : Fin 2) * 2000 + 1 * r.val = i.val; rw [e0, hi]; omega
  | ⟨1, _⟩ => show win6_0.index t (1 : Fin 2) * 256 + 1 * k.val = k.val; rw [e1]; omega

theorem iblk6_1_apply (c : Dev nD) (t : Fin cfg6.N) (r : Fin 2000) (i : Fin 100000)
    (hi : i.val = 2000 * t.val + r.val) :
    (iblk6 V c 1 t : Vec Ideal S2000x1 .i32) (ix2 r (0 : Fin 1)) = (V c main_v6 : S100000x1.Idx → BitVec 32) (ix2 i (0 : Fin 1)) := by
  obtain ⟨-, -, e0, e1, -⟩ := idx6_facts t
  unfold iblk6
  rw [View.read_apply]
  show V c main_v6 _ = V c main_v6 _
  congr 1
  funext a
  apply Fin.ext
  match a with
  | ⟨0, _⟩ => show win6_1.index t (0 : Fin 2) * 2000 + 1 * r.val = i.val; rw [e0, hi]; omega
  | ⟨1, _⟩ => show win6_1.index t (1 : Fin 2) * 1 + 1 * 0 = 0; rw [e1]

theorem iblk6_2_apply (c : Dev nD) (t : Fin cfg6.N) (k : Fin 256) (o : Fin 12) :
    (iblk6 V c 2 t : Vec Ideal S256x12 .bf16) (ix2 k o) = (V c main_v11 : S256x12.Idx → EReal) (ix2 k o) := by
  obtain ⟨-, -, -, -, e0, e1, -⟩ := idx6_facts t
  unfold iblk6
  rw [View.read_apply]
  show V c main_v11 _ = V c main_v11 _
  congr 1
  funext a
  apply Fin.ext
  match a with
  | ⟨0, _⟩ => show win6_2.index t (0 : Fin 2) * 256 + 1 * k.val = k.val; rw [e0]; omega
  | ⟨1, _⟩ => show win6_2.index t (1 : Fin 2) * 12 + 1 * o.val = o.val; rw [e1]; omega

theorem iblk6_3_apply (c : Dev nD) (t : Fin cfg6.N) (o : Fin 12) :
    (iblk6 V c 3 t : Vec Ideal S12 .f32) (ix1 o) = (V c main_arg10 : S12.Idx → EReal) (ix1 o) := by
  obtain ⟨-, -, -, -, -, -, e0, -⟩ := idx6_facts t
  unfold iblk6
  rw [View.read_apply]
  show V c main_arg10 _ = V c main_arg10 _
  congr 1
  funext a
  apply Fin.ext
  match a with
  | ⟨0, _⟩ => show win6_3.index t (0 : Fin 1) * 12 + 1 * o.val = o.val; rw [e0]; omega

def tile6 (c : Dev nD) (g : Fin 2000) (k : Fin 256) (s : ℕ) : EReal :=
  if hs : s < cfg6.N then
    ∑ r : Fin 2000, Cert.Spec.oh ((iblk6 V c 1 ⟨s, hs⟩ : Vec Ideal S2000x1 .i32) (ix2 r (0 : Fin 1))) (BitVec.ofNat 32 g.val)
      * (iblk6 V c 0 ⟨s, hs⟩ : Vec Ideal S2000x256 .f32) (ix2 r k)
  else 0

theorem tile6_pos (c : Dev nD) (g : Fin 2000) (k : Fin 256) (s : ℕ) (hs : s < cfg6.N) :
    tile6 V c g k s
      = ∑ r : Fin 2000, Cert.Spec.oh ((iblk6 V c 1 ⟨s, hs⟩ : Vec Ideal S2000x1 .i32) (ix2 r (0 : Fin 1))) (BitVec.ofNat 32 g.val)
          * (iblk6 V c 0 ⟨s, hs⟩ : Vec Ideal S2000x256 .f32) (ix2 r k) := dif_pos hs

theorem acc6_apply (c : Dev nD) (g : Fin 2000) (k : Fin 256) : ∀ (n : ℕ) (hn : n < cfg6.N),
    acc6 V c n hn (ix2 g k) = ∑ s ∈ Finset.range (n + 1), tile6 V c g k s
  | 0, hn => by
    rw [acc6_zero]
    refine (k6_pay2_apply _ _ _ g k).trans ?_
    rw [k6_pay1_apply, zero_add, Finset.sum_range_one, tile6_pos V c g k 0 hn]
  | n + 1, hn => by
    rw [acc6_succ]
    refine (k6_pay2_apply _ _ _ g k).trans ?_
    rw [acc6_apply c g k n (Nat.lt_of_succ_lt hn), Finset.sum_range_succ _ (n + 1), tile6_pos V c g k (n + 1) hn]

theorem sum_rows_by_tile (f : Fin 100000 → EReal) :
    ∑ i : Fin 100000, f i
      = ∑ s : Fin 50, ∑ r : Fin 2000, f ⟨2000 * s.val + r.val, by have := s.isLt; have := r.isLt; omega⟩ := by
  rw [← Equiv.sum_comp (finProdFinEquiv (m := 50) (n := 2000)) (fun i : Fin (50 * 2000) => f i), Fintype.sum_prod_type]
  refine Finset.sum_congr rfl fun s _ => Finset.sum_congr rfl fun r _ => congrArg f (Fin.ext ?_)
  show r.val + 2000 * s.val = 2000 * s.val + r.val
  omega

theorem acc6_last (c : Dev nD) (g : Fin 2000) (k : Fin 256) (n : ℕ) (hn : n < cfg6.N) (h49 : n = 49) :
    acc6 V c n hn (ix2 g k)
      = ∑ i : Fin 100000, Cert.Spec.oh ((V c main_v6 : S100000x1.Idx → BitVec 32) (ix2 i (0 : Fin 1))) (BitVec.ofNat 32 g.val)
          * (V c main_v37 : S100000x256.Idx → EReal) (ix2 i k) := by
  subst h49
  rw [acc6_apply, Finset.sum_range, sum_rows_by_tile]
  refine Finset.sum_congr rfl fun s _ => ?_
  rw [tile6_pos V c g k s.val s.isLt]
  refine Finset.sum_congr rfl fun r _ => ?_
  rw [iblk6_0_apply V c ⟨s.val, s.isLt⟩ r k ⟨2000 * s.val + r.val, by have := s.isLt; have := r.isLt; omega⟩ rfl,
    iblk6_1_apply V c ⟨s.val, s.isLt⟩ r ⟨2000 * s.val + r.val, by have := s.isLt; have := r.isLt; omega⟩ rfl]

abbrev pool6 (c : Dev nD) : S2000x12.Idx → EReal :=
  Cert.Spec.poolLin (N := 100000) (G := 2000) (d := 256) (O := 12) (V c main_v37) (V c main_v6) (V c main_v11) (V c main_arg10)

theorem pool6_apply (c : Dev nD) (g : Fin 2000) (o : Fin 12) :
    pool6 V c (ix2 g o)
      = (∑ k : Fin 256, (∑ i : Fin 100000, Cert.Spec.oh ((V c main_v6 : S100000x1.Idx → BitVec 32) (ix2 i (0 : Fin 1))) (BitVec.ofNat 32 g.val)
          * (V c main_v37 : S100000x256.Idx → EReal) (ix2 i k)) * (V c main_v11 : S256x12.Idx → EReal) (ix2 k o))
        + (V c main_arg10 : S12.Idx → EReal) (ix1 o) := rfl

theorem flushed6_eq (c : Dev nD) (t : Fin cfg6.N) (hf : (cfg6.win 4).flush t = true) :
    (dat6 V c).flushed 4 t = ((cfg6.win 4).blk t).view.read (Elt Ideal) (pool6 V c) := by
  have hN : cfg6.N = 50 := rfl
  have h49 : t.val = 49 := by have := (flush6_last t).mp hf; have := t.isLt; omega
  obtain ⟨-, -, -, -, -, -, -, e0, e1⟩ := idx6_facts t
  show (cfg6.win 4).cut (grid6.coords t) ((dat6 V c).after 4 t) = _
  rw [after6_4]
  funext j
  obtain ⟨p, q, rfl⟩ : ∃ (p : Fin 2000) (q : Fin 12), j = ix2 p q := ⟨j 0, j 1, eq_ix2 j⟩
  rw [View.read_apply]
  show k6_pay3 (acc6 V c t.val t.isLt) (iblk6 V c 2 t) (iblk6 V c 3 t) (ix2 p q)
    = pool6 V c (((cfg6.win 4).blk t).view.emb (ix2 p q))
  have hemb : ((cfg6.win 4).blk t).view.emb (ix2 p q) = ix2 p q := by
    funext a
    apply Fin.ext
    match a with
    | ⟨0, _⟩ => show win6_4.index t (0 : Fin 2) * 2000 + 1 * p.val = p.val; rw [e0]; omega
    | ⟨1, _⟩ => show win6_4.index t (1 : Fin 2) * 12 + 1 * q.val = q.val; rw [e1]; omega
  rw [hemb, pool6_apply]
  refine (k6_pay3_apply _ _ _ p q).trans ?_
  rw [iblk6_3_apply]
  refine congrArg (· + (V c main_arg10 : S12.Idx → EReal) (ix1 q)) (Finset.sum_congr rfl fun k _ => ?_)
  rw [acc6_last V c p k t.val t.isLt h49, iblk6_2_apply]

abbrev t6_last : Fin cfg6.N := ⟨49, by decide⟩

theorem cover6 (i : S2000x12.Idx) : i ∈ ((cfg6.win 4).blk t6_last).view.set := by
  obtain ⟨-, -, -, -, -, -, -, e0, e1⟩ := idx6_facts t6_last
  show i ∈ ((View.whole main_v38).slice (win6_4.rect t6_last)).set
  rw [View.set_slice_whole, Rect.mem_set_unit]
  intro a
  have h0 : (i 0 : ℕ) < 2000 := (i 0).isLt
  have h1 : (i 1 : ℕ) < 12 := (i 1).isLt
  match a with
  | ⟨0, _⟩ =>
    show win6_4.index t6_last (0 : Fin 2) * 2000 ≤ (i 0 : ℕ) ∧ (i 0 : ℕ) < win6_4.index t6_last (0 : Fin 2) * 2000 + 2000
    rw [e0]; omega
  | ⟨1, _⟩ =>
    show win6_4.index t6_last (1 : Fin 2) * 12 ≤ (i 1 : ℕ) ∧ (i 1 : ℕ) < win6_4.index t6_last (1 : Fin 2) * 12 + 12
    rw [e1]; omega

theorem val6 (c : Dev nD) :
    (dat6 (F := Ideal) V c).arrAt 4 cfg6.N
      = Cert.Spec.poolLin (N := 100000) (G := 2000) (d := 256) (O := 12) (V c main_v37) (V c main_v6) (V c main_v11) (V c main_arg10) :=
  (dat6 V c).arrAt_eq_of_cover 4 (pool6 V c) (flushed6_eq V c) fun i =>
    ⟨t6_last, (flush6_last t6_last).mpr rfl, cover6 i⟩

end

end Cert.KernelIdeal.Hand

end
-- ==== Proof.LibGraphOps.lean ====
import Idealize.ShloMosaic.Lib.ValueIdx
import Idealize.ShloMosaic.Lib.StableHlo.Predicate
import proofs.«423955_j37598143709627_1_alg».proof.Proof.Spec

noncomputable section

open scoped BigOperators

namespace Cert.GraphOps

open Idealize.ShloMosaic Idealize.ShloMosaic.ValueIdx

theorem toInt_eq_natCast_iff (w : BitVec 32) {n : ℕ} (hn : n < 2 ^ 31) :
    w.toInt = (n : ℤ) ↔ w = BitVec.ofNat 32 n := by
  constructor
  · intro h
    have := BitVec.ofInt_toInt (x := w)
    rw [h] at this
    rw [← this]; exact BitVec.ofInt_natCast ..
  · rintro rfl
    exact StableHlo.Predicate.toInt_ofNat_small n hn

theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i hc
    rw [Option.some.injEq]
    constructor
    · rintro rfl a
      have := hc a
      simp only []
      omega
    · intro hall
      funext a
      apply Fin.ext
      have := hall a
      have := hc a
      simp only []
      omega
  · rename_i hc
    constructor
    · intro h; cases h
    · intro hall
      refine absurd (fun a => ?_) hc
      have := hall a
      have := (i a).isLt
      constructor <;> omega

theorem fin2_one_ne_zero : ¬ (1 : Fin 2) = 0 := by decide

theorem scatter_mem_sKept {s si u : Shape} (d : ScatterDims s si u) (a : Fin s.rank) :
    a ∈ d.sKept ↔ a ∉ d.insertedWindowDims := by
  simp [ScatterDims.sKept, Shape.kept, List.mem_filter, List.mem_finRange]

abbrev rowScatter (N E D : ℕ) (h : ScatterDims.WF (⟨2, ![N, D]⟩ : Shape) (⟨2, ![E, 1]⟩ : Shape) (⟨2, ![E, D]⟩ : Shape) [1] [0] [0] 1) :
    ScatterDims (⟨2, ![N, D]⟩ : Shape) (⟨2, ![E, 1]⟩ : Shape) (⟨2, ![E, D]⟩ : Shape) :=
  { updateWindowDims := [1], insertedWindowDims := [0], scatterDimsToOperandDims := [0], indexVectorDim := 1, wf := h }

section Scatter
variable {N E D : ℕ}
  (h : ScatterDims.WF (⟨2, ![N, D]⟩ : Shape) (⟨2, ![E, 1]⟩ : Shape) (⟨2, ![E, D]⟩ : Shape) [1] [0] [0] 1)

theorem rowScatter_start_zero (j : (⟨2, ![E, D]⟩ : Shape).Idx) (idx : (⟨2, ![E, 1]⟩ : Shape).Idx → BitVec 32) :
    (rowScatter N E D h).start j idx 0 = (idx (ix2 (j 0) (0 : Fin 1))).toInt := by
  unfold ScatterDims.start
  rw [dif_pos (show (0 : Fin 2) ∈ (rowScatter N E D h).scatterDimsToOperandDims from List.mem_singleton.mpr rfl)]
  congr 2
  funext b
  refine Fin.ext ?_
  match b with
  | ⟨0, _⟩ => rfl
  | ⟨1, _⟩ => rfl

theorem rowScatter_start_one (j : (⟨2, ![E, D]⟩ : Shape).Idx) (idx : (⟨2, ![E, 1]⟩ : Shape).Idx → BitVec 32) :
    (rowScatter N E D h).start j idx 1 = 0 := by
  unfold ScatterDims.start
  rw [dif_neg (show (1 : Fin 2) ∉ (rowScatter N E D h).scatterDimsToOperandDims from
    fun hm => absurd (List.mem_singleton.mp hm) fin2_one_ne_zero)]

theorem rowScatter_window_zero (j : (⟨2, ![E, D]⟩ : Shape).Idx) : (rowScatter N E D h).window j 0 = 0 := by
  unfold ScatterDims.window
  rw [dif_neg (show (0 : Fin 2) ∉ (rowScatter N E D h).sKept from
    fun hk => (scatter_mem_sKept _ _).mp hk (List.mem_singleton.mpr rfl))]

theorem rowScatter_window_one (j : (⟨2, ![E, D]⟩ : Shape).Idx) : (rowScatter N E D h).window j 1 = (j 1).val := by
  unfold ScatterDims.window
  rw [dif_pos (show (1 : Fin 2) ∈ (rowScatter N E D h).sKept from
    (scatter_mem_sKept _ _).mpr fun hm => absurd (List.mem_singleton.mp hm) fin2_one_ne_zero)]
  rfl

theorem rowScatter_lands_iff (hN : N ≤ 2 ^ 31) (j : (⟨2, ![E, D]⟩ : Shape).Idx)
    (idx : (⟨2, ![E, 1]⟩ : Shape).Idx → BitVec 32) (i : (⟨2, ![N, D]⟩ : Shape).Idx) :
    (rowScatter N E D h).resultIdx? j idx = some i ↔
      idx (ix2 (j 0) (0 : Fin 1)) = BitVec.ofNat 32 (i 0).val ∧ (j 1).val = (i 1).val := by
  have hi0 : (i 0).val < N := idx2_lt0 i
  rw [resultIdx?_eq_some_iff, ← toInt_eq_natCast_iff _ (show (i 0).val < 2 ^ 31 by omega)]
  constructor
  · intro hall
    have h0 := hall 0
    have h1 := hall 1
    rw [rowScatter_start_zero, rowScatter_window_zero] at h0
    rw [rowScatter_start_one, rowScatter_window_one] at h1
    constructor <;> omega
  · rintro ⟨h0, h1⟩ a
    match a with
    | ⟨0, _⟩ =>
      show (rowScatter N E D h).start j idx 0 + ((rowScatter N E D h).window j 0 : ℤ) = ((i 0).val : ℤ)
      rw [rowScatter_start_zero, rowScatter_window_zero]; omega
    | ⟨1, _⟩ =>
      show (rowScatter N E D h).start j idx 1 + ((rowScatter N E D h).window j 1 : ℤ) = ((i 1).val : ℤ)
      rw [rowScatter_start_one, rowScatter_window_one]; omega

end Scatter

theorem scatterAdd_rows {N E D : ℕ} (hN : N ≤ 2 ^ 31) (h) (x : (⟨2, ![N, D]⟩ : Shape).Idx → EReal)
    (idx : (⟨2, ![E, 1]⟩ : Shape).Idx → BitVec 32) (upd : (⟨2, ![E, D]⟩ : Shape).Idx → EReal) :
    Host.scatterAdd (F := Ideal) (φ := .f32) (rowScatter N E D h) x idx upd
      = fun j => x j + Cert.Spec.scatterOH idx upd j := by
  funext i
  show x i + ∑ j ∈ Finset.univ.filter (fun j => (rowScatter N E D h).resultIdx? j idx = some i), upd j
    = x i + Cert.Spec.scatterOH idx upd i
  congr 1
  rw [Finset.sum_filter, sum_idx2]
  unfold Cert.Spec.scatterOH
  refine Finset.sum_congr rfl fun e _ => ?_

  refine (Finset.sum_eq_single (i 1 : Fin D) ?_ ?_).trans ?_
  · intro c _ hc
    exact if_neg fun hl => hc (Fin.ext ((rowScatter_lands_iff h hN _ idx i).mp hl).2)
  · intro hni
    exact absurd (Finset.mem_univ _) hni
  · by_cases hw : idx (ix2 e (0 : Fin 1)) = BitVec.ofNat 32 (i 0 : Fin N).val
    · rw [if_pos ((rowScatter_lands_iff h hN _ idx i).mpr ⟨hw, rfl⟩), hw, Cert.Spec.oh_self, one_mul]
    · rw [if_neg (fun hl => hw ((rowScatter_lands_iff h hN _ idx i).mp hl).1), Cert.Spec.oh_ne hw, zero_mul]

abbrev rowGather (N E D : ℕ) (h : GatherDims.WF (⟨2, ![N, D]⟩ : Shape) (⟨2, ![E, 1]⟩ : Shape) (⟨2, ![E, D]⟩ : Shape) [1] [0] [] [0] [] 1 ![1, D]) :
    GatherDims (⟨2, ![N, D]⟩ : Shape) (⟨2, ![E, 1]⟩ : Shape) (⟨2, ![E, D]⟩ : Shape) :=
  { offsetDims := [1], collapsedSliceDims := [0], operandBatchingDims := [], startIndicesBatchingDims := [], startIndexMap := [0], indexVectorDim := 1, sliceSizes := ![1, D], wf := h }

section Gather
variable {N E D : ℕ}
  (h : GatherDims.WF (⟨2, ![N, D]⟩ : Shape) (⟨2, ![E, 1]⟩ : Shape) (⟨2, ![E, D]⟩ : Shape) [1] [0] [] [0] [] 1 ![1, D])

theorem rowGather_operandIdx_zero (j : (⟨2, ![E, D]⟩ : Shape).Idx) (idx : (⟨2, ![E, 1]⟩ : Shape).Idx → BitVec 32) :
    ((rowGather N E D h).operandIdx j idx 0).val = min (idx (ix2 (j 0) (0 : Fin 1))).toInt.toNat (N - 1) := by
  show (rowGather N E D h).start j idx 0 + (rowGather N E D h).batchCoord j 0 + (rowGather N E D h).offCoord j 0 = _
  rw [GatherDims.batchCoord_eq_zero _ _ _ List.not_mem_nil,
    GatherDims.offCoord_eq_zero _ _ _ (fun hk => ((GatherDims.mem_sKept _ _).mp hk).1 (List.mem_singleton.mpr rfl))]
  simp only [Nat.add_zero]
  unfold GatherDims.start
  rw [dif_pos (show (0 : Fin 2) ∈ (rowGather N E D h).startIndexMap from List.mem_singleton.mpr rfl)]
  have hsi : (rowGather N E D h).siIdx j ⟨List.idxOf (0 : Fin 2) (rowGather N E D h).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowGather_operandIdx_one (j : (⟨2, ![E, D]⟩ : Shape).Idx) (idx : (⟨2, ![E, 1]⟩ : Shape).Idx → BitVec 32) :
    ((rowGather N E D h).operandIdx j idx 1).val = (j 1).val := by
  show (rowGather N E D h).start j idx 1 + (rowGather N E D h).batchCoord j 1 + (rowGather N E D h).offCoord j 1 = _
  rw [GatherDims.batchCoord_eq_zero _ _ _ List.not_mem_nil]
  unfold GatherDims.start GatherDims.offCoord
  rw [dif_neg (show (1 : Fin 2) ∉ (rowGather N E D h).startIndexMap from
      fun hm => absurd (List.mem_singleton.mp hm) fin2_one_ne_zero),
    dif_pos (show (1 : Fin 2) ∈ (rowGather N E D h).sKept from
      (GatherDims.mem_sKept _ _).mpr ⟨fun hm => absurd (List.mem_singleton.mp hm) fin2_one_ne_zero, List.not_mem_nil⟩)]
  simp only [Nat.zero_add]
  rfl

end Gather

theorem gather_rows {N E D : ℕ} (hN : N ≤ 2 ^ 31) (h) (x : (⟨2, ![N, D]⟩ : Shape).Idx → EReal)
    (idx : (⟨2, ![E, 1]⟩ : Shape).Idx → BitVec 32)
    (hin : ∀ e : Fin E, 0 ≤ (idx (ix2 e (0 : Fin 1))).toInt ∧ (idx (ix2 e (0 : Fin 1))).toInt < N) :
    Host.gather (rowGather N E D h) x idx = Cert.Spec.gatherOH idx x := by
  funext j
  obtain ⟨hlo, hhi⟩ := hin (j 0)

  have hr : (idx (ix2 (j 0) (0 : Fin 1))).toInt.toNat < N := by omega
  have hop : (rowGather N E D h).operandIdx j idx
      = ix2 (⟨(idx (ix2 (j 0) (0 : Fin 1))).toInt.toNat, hr⟩ : Fin N) (j 1 : Fin D) := by
    funext a
    refine Fin.ext ?_
    match a with
    | ⟨0, _⟩ =>
      show ((rowGather N E D h).operandIdx j idx 0).val = _
      rw [rowGather_operandIdx_zero]
      show min _ (N - 1) = (idx (ix2 (j 0) (0 : Fin 1))).toInt.toNat
      omega
    | ⟨1, _⟩ => exact rowGather_operandIdx_one h j idx

  have hw : idx (ix2 (j 0) (0 : Fin 1)) = BitVec.ofNat 32 (idx (ix2 (j 0) (0 : Fin 1))).toInt.toNat :=
    (toInt_eq_natCast_iff _ (show (idx (ix2 (j 0) (0 : Fin 1))).toInt.toNat < 2 ^ 31 by omega)).mp (by omega)
  unfold Host.gather Cert.Spec.gatherOH
  rw [hop, Finset.sum_eq_single (⟨(idx (ix2 (j 0) (0 : Fin 1))).toInt.toNat, hr⟩ : Fin N)]
  · show _ = Cert.Spec.oh (idx (ix2 (j 0) (0 : Fin 1))) (BitVec.ofNat 32 (idx (ix2 (j 0) (0 : Fin 1))).toInt.toNat) * _
    rw [← hw, Cert.Spec.oh_self, one_mul]
    rfl
  · intro n _ hn
    rw [Cert.Spec.oh_ne, zero_mul]
    intro heq
    apply hn
    apply Fin.ext

    have h1 := (toInt_eq_natCast_iff (idx (ix2 (j 0) (0 : Fin 1))) (show n.val < 2 ^ 31 by have := n.isLt; omega)).mpr heq
    show n.val = (idx (ix2 (j 0) (0 : Fin 1))).toInt.toNat
    omega
  · intro hni
    exact absurd (Finset.mem_univ _) hni

theorem divf_apply {s : Shape} {φ : FTy} (a b : FVec Ideal s φ) (i : s.Idx) :
    Host.divf a b i = Ideal.div (a i) (b i) := rfl

theorem sum_fin_mul (T P : ℕ) (f : ℕ → EReal) :
    ∑ n : Fin (T * P), f n.val = ∑ t : Fin T, ∑ k : Fin P, f (t.val * P + k.val) := by
  rw [← Equiv.sum_comp (finProdFinEquiv (m := T) (n := P)) (fun n => f n.val), Fintype.sum_prod_type]
  refine Finset.sum_congr rfl fun t _ => Finset.sum_congr rfl fun k _ => ?_
  simp only [finProdFinEquiv_apply_val]
  congr 1
  rw [Nat.add_comm, Nat.mul_comm]

end Cert.GraphOps

end
-- ==== Proof.KI.Chain.lean ====
import proofs.«423955_j37598143709627_1_alg».proof.Proof.Gen.KernelIdeal.Launch
import proofs.«423955_j37598143709627_1_alg».proof.Proof.Gen.KernelIdeal.Skeleton
import proofs.«423955_j37598143709627_1_alg».proof.Proof.Gen.KernelIdeal.Regions
import proofs.«423955_j37598143709627_1_alg».proof.Proof.KI.Fold
import proofs.«423955_j37598143709627_1_alg».proof.Proof.KI.Val0
import proofs.«423955_j37598143709627_1_alg».proof.Proof.KI.Val1
import proofs.«423955_j37598143709627_1_alg».proof.Proof.KI.Val2
import proofs.«423955_j37598143709627_1_alg».proof.Proof.KI.Val3
import proofs.«423955_j37598143709627_1_alg».proof.Proof.KI.Val4
import proofs.«423955_j37598143709627_1_alg».proof.Proof.KI.Val5
import proofs.«423955_j37598143709627_1_alg».proof.Proof.KI.Val6
import proofs.«423955_j37598143709627_1_alg».proof.Proof.Spec
import proofs.«423955_j37598143709627_1_alg».proof.Proof.LibGraphOps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

namespace Chain

section Layout
variable {α : Type}

theorem slice0_col {E : ℕ} (x : (⟨2, ![2, E]⟩ : Shape).Idx → α) (hs : (⟨2, ![2, E]⟩ : Shape).Slices ![0, 0] ⟨2, ![1, E]⟩)
    (h1 : (⟨2, ![1, E]⟩ : Shape).ShapeCasts ⟨1, ![E]⟩) (h2 : (⟨1, ![E]⟩ : Shape).ShapeCasts ⟨2, ![E, 1]⟩) :
    shapeCast ⟨2, ![E, 1]⟩ (shapeCast ⟨1, ![E]⟩ (extractStridedSlice ⟨2, ![1, E]⟩ ![0, 0] x hs) h1) h2
      = fun j => x (ix2 (0 : Fin 2) (j 0 : Fin E)) := by
  funext j
  have hj1 : (j 1).val < 1 := idx2_lt1 j
  rw [shapeCast_apply _ h2 j (ix1 (j 0 : Fin E)) (by
        rw [Shape.rowMajor_val_one, Shape.rowMajor_val_two]; show (j 0).val = (j 0).val * 1 + (j 1).val; omega),
    shapeCast_apply _ h1 (ix1 (j 0 : Fin E)) (ix2 (0 : Fin 1) (j 0 : Fin E)) (by
        rw [Shape.rowMajor_val_two, Shape.rowMajor_val_one]; show 0 * E + (j 0).val = (j 0).val; omega)]
  exact extractStridedSlice_apply ![0, 0] x hs _ (ix2 (0 : Fin 2) (j 0 : Fin E)) (fun a => match a with
    | ⟨0, _⟩ => by show 0 = 0 + 0; rfl
    | ⟨1, _⟩ => by show (j 0).val = 0 + (j 0).val; omega)

theorem slice1_col {E : ℕ} (x : (⟨2, ![2, E]⟩ : Shape).Idx → α) (hs : (⟨2, ![2, E]⟩ : Shape).Slices ![1, 0] ⟨2, ![1, E]⟩)
    (h1 : (⟨2, ![1, E]⟩ : Shape).ShapeCasts ⟨1, ![E]⟩) (h2 : (⟨1, ![E]⟩ : Shape).ShapeCasts ⟨2, ![E, 1]⟩) :
    shapeCast ⟨2, ![E, 1]⟩ (shapeCast ⟨1, ![E]⟩ (extractStridedSlice ⟨2, ![1, E]⟩ ![1, 0] x hs) h1) h2
      = fun j => x (ix2 (1 : Fin 2) (j 0 : Fin E)) := by
  funext j
  have hj1 : (j 1).val < 1 := idx2_lt1 j
  rw [shapeCast_apply _ h2 j (ix1 (j 0 : Fin E)) (by
        rw [Shape.rowMajor_val_one, Shape.rowMajor_val_two]; show (j 0).val = (j 0).val * 1 + (j 1).val; omega),
    shapeCast_apply _ h1 (ix1 (j 0 : Fin E)) (ix2 (0 : Fin 1) (j 0 : Fin E)) (by
        rw [Shape.rowMajor_val_two, Shape.rowMajor_val_one]; show 0 * E + (j 0).val = (j 0).val; omega)]
  exact extractStridedSlice_apply ![1, 0] x hs _ (ix2 (1 : Fin 2) (j 0 : Fin E)) (fun a => match a with
    | ⟨0, _⟩ => by show 1 = 1 + 0; rfl
    | ⟨1, _⟩ => by show (j 0).val = 0 + (j 0).val; omega)

theorem vec_col {N : ℕ} (v : (⟨1, ![N]⟩ : Shape).Idx → α) (h : (⟨1, ![N]⟩ : Shape).ShapeCasts ⟨2, ![N, 1]⟩) :
    shapeCast ⟨2, ![N, 1]⟩ v h = fun j => v (ix1 (j 0 : Fin N)) := by
  funext j
  have hj1 : (j 1).val < 1 := idx2_lt1 j
  exact shapeCast_apply v h j (ix1 (j 0 : Fin N)) (by
    rw [Shape.rowMajor_val_one, Shape.rowMajor_val_two]; show (j 0).val = (j 0).val * 1 + (j 1).val; omega)

theorem col_roundtrip {E : ℕ} (v : (⟨2, ![E, 1]⟩ : Shape).Idx → α) (h1 : (⟨2, ![E, 1]⟩ : Shape).ShapeCasts ⟨1, ![E]⟩)
    (hb : (⟨1, ![E]⟩ : Shape).BroadcastsInDim ⟨2, ![E, 1]⟩ ![0]) :
    broadcastInDim ⟨2, ![E, 1]⟩ ![0] hb (shapeCast ⟨1, ![E]⟩ v h1) = v := by
  funext j
  have hj0 : (j 0).val < E := idx2_lt0 j
  have hj1 : (j 1).val < 1 := idx2_lt1 j
  rw [broadcastInDim_apply _ hb _ j (ix1 (j 0 : Fin E)) (fun a => match a with
    | ⟨0, _⟩ => by show (j 0).val = if E = 1 then 0 else (j 0).val; split <;> omega)]
  exact shapeCast_apply v h1 (ix1 (j 0 : Fin E)) j (by
    rw [Shape.rowMajor_val_two, Shape.rowMajor_val_one]; show (j 0).val * 1 + (j 1).val = (j 0).val; omega)

theorem bcast_scalar_apply {t : Shape} (hb : (⟨0, ![]⟩ : Shape).BroadcastsInDim t ![]) (x : (⟨0, ![]⟩ : Shape).Idx → α)
    (j : t.Idx) : broadcastInDim t ![] hb x j = x ix0 :=
  broadcastInDim_apply _ hb x j ix0 (fun a => a.elim0)

theorem bcast_col_apply {N D : ℕ} (hb : (⟨2, ![N, 1]⟩ : Shape).BroadcastsInDim ⟨2, ![N, D]⟩ ![0, 1])
    (v : (⟨2, ![N, 1]⟩ : Shape).Idx → α) (j : (⟨2, ![N, D]⟩ : Shape).Idx) :
    broadcastInDim ⟨2, ![N, D]⟩ ![0, 1] hb v j = v (ix2 (j 0 : Fin N) (0 : Fin 1)) := by
  have hj0 : (j 0).val < N := idx2_lt0 j
  exact broadcastInDim_apply _ hb v j (ix2 (j 0 : Fin N) (0 : Fin 1)) (fun a => match a with
    | ⟨0, _⟩ => by show (j 0).val = if N = 1 then 0 else (j 0).val; split <;> omega
    | ⟨1, _⟩ => by show 0 = if (1 : ℕ) = 1 then 0 else (j 1).val; rw [if_pos rfl])

end Layout

section Mean

theorem mean_arrays {N E D : ℕ} (hN : N ≤ 2 ^ 31) (hwf)
    (agg : (⟨2, ![N, D]⟩ : Shape).Idx → EReal) (dst : (⟨2, ![E, 1]⟩ : Shape).Idx → BitVec 32)
    (hb0 : (⟨0, ![]⟩ : Shape).BroadcastsInDim ⟨2, ![N, 1]⟩ ![]) (hbE : (⟨0, ![]⟩ : Shape).BroadcastsInDim ⟨2, ![E, 1]⟩ ![])
    (hbc : (⟨2, ![N, 1]⟩ : Shape).BroadcastsInDim ⟨2, ![N, D]⟩ ![0, 1])
    (h1 : (⟨2, ![E, 1]⟩ : Shape).ShapeCasts ⟨1, ![E]⟩) (hb : (⟨1, ![E]⟩ : Shape).BroadcastsInDim ⟨2, ![E, 1]⟩ ![0]) :
    Host.divf (F := Ideal) (φ := .f32) agg (broadcastInDim ⟨2, ![N, D]⟩ ![0, 1] hbc
      (maximumf (F := Ideal) (φ := .f32)
        (Host.scatterAdd (F := Ideal) (φ := .f32) (Cert.GraphOps.rowScatter N E 1 hwf)
          (broadcastInDim ⟨2, ![N, 1]⟩ ![] hb0 (constant (F := Ideal) ⟨0, ![]⟩ .f32 0x00000000#32))
          (broadcastInDim ⟨2, ![E, 1]⟩ ![0] hb (shapeCast ⟨1, ![E]⟩ dst h1))
          (broadcastInDim ⟨2, ![E, 1]⟩ ![] hbE (constant (F := Ideal) ⟨0, ![]⟩ .f32 0x3F800000#32)))
        (broadcastInDim ⟨2, ![N, 1]⟩ ![] hb0 (constant (F := Ideal) ⟨0, ![]⟩ .f32 0x3F800000#32))))
      = Cert.Spec.meanAgg dst agg := by
  funext j
  rw [Cert.GraphOps.divf_apply, bcast_col_apply, maximumf_apply, col_roundtrip, Cert.GraphOps.scatterAdd_rows hN]
  beta_reduce
  have hones : broadcastInDim ⟨2, ![E, 1]⟩ ![] hbE (constant (F := Ideal) ⟨0, ![]⟩ .f32 0x3F800000#32)
      = fun _ => (1 : EReal) := by
    funext e; rw [bcast_scalar_apply, constant_apply, Ideal.ofBits_one_f32]
  rw [hones, bcast_scalar_apply, bcast_scalar_apply, constant_apply, constant_apply, Ideal.ofBits_zero_f32,
    Ideal.ofBits_one_f32, zero_add]
  rfl

end Mean

section Host
variable (W : Valuation τ sig (Elt Ideal))

theorem h0_v2 : StableHlo.after (hostOps0 (F := Ideal)) W (Proc.devRef .tc main_v2)
    = Cert.Spec.rowCol 0 (W (Proc.devRef .tc main_arg1)) := by
  after_results
  exact slice0_col _ _ _ _

theorem h0_v5 : StableHlo.after (hostOps0 (F := Ideal)) W (Proc.devRef .tc main_v5)
    = Cert.Spec.rowCol 1 (W (Proc.devRef .tc main_arg1)) := by
  after_results
  exact slice1_col _ _ _ _

theorem h0_v6 : StableHlo.after (hostOps0 (F := Ideal)) W (Proc.devRef .tc main_v6)
    = Cert.Spec.vecCol (W (Proc.devRef .tc main_arg2)) := by
  after_results
  exact vec_col _ _

theorem h0_v7 : StableHlo.after (hostOps0 (F := Ideal)) W (Proc.devRef .tc main_v7) = W (Proc.devRef .tc main_arg3) := by
  after_results
  rfl

theorem h0_v8 : StableHlo.after (hostOps0 (F := Ideal)) W (Proc.devRef .tc main_v8) = W (Proc.devRef .tc main_arg5) := by
  after_results
  rfl

theorem h0_v9 : StableHlo.after (hostOps0 (F := Ideal)) W (Proc.devRef .tc main_v9) = W (Proc.devRef .tc main_arg6) := by
  after_results
  rfl

theorem h0_v10 : StableHlo.after (hostOps0 (F := Ideal)) W (Proc.devRef .tc main_v10) = W (Proc.devRef .tc main_arg8) := by
  after_results
  rfl

theorem h0_v11 : StableHlo.after (hostOps0 (F := Ideal)) W (Proc.devRef .tc main_v11) = W (Proc.devRef .tc main_arg9) := by
  after_results
  rfl

theorem h0_v12 : StableHlo.after (hostOps0 (F := Ideal)) W (Proc.devRef .tc main_v12) = W (Proc.devRef .tc main_arg0) := by
  after_results
  rfl

theorem h2_v23 : StableHlo.after (hostOps2 (F := Ideal)) W (Proc.devRef .tc main_v23)
    = Cert.Spec.meanAgg (W (Proc.devRef .tc main_v5)) (W (Proc.devRef .tc main_v14)) := by
  after_results
  exact mean_arrays (by norm_num) _ _ _ _ _ _ _ _

theorem h3_v25 : StableHlo.after (hostOps3 (F := Ideal)) W (Proc.devRef .tc main_v25) = W (Proc.devRef .tc main_v24) := by
  after_results
  rfl

theorem h5_v36 : StableHlo.after (hostOps5 (F := Ideal)) W (Proc.devRef .tc main_v36)
    = Cert.Spec.meanAgg (W (Proc.devRef .tc main_v5)) (W (Proc.devRef .tc main_v27)) := by
  after_results
  exact mean_arrays (by norm_num) _ _ _ _ _ _ _ _

end Host

section Items
variable (m : (ℓ : Loc nD τ sig) → Buf (Elt Ideal) ℓ) (ρ : Dev nD → PrngReg) (c : Dev nD)

abbrev srcOf := Cert.Spec.rowCol 0 (m ((c : Thread nD τ).loc main_arg1))

abbrev dstOf := Cert.Spec.rowCol 1 (m ((c : Thread nD τ).loc main_arg1))

abbrev bidOf := Cert.Spec.vecCol (m ((c : Thread nD τ).loc main_arg2))

abbrev h1Of := Cert.Spec.layer (srcOf m c) (dstOf m c) (m ((c : Thread nD τ).loc main_arg0))
  (m ((c : Thread nD τ).loc main_arg3)) (m ((c : Thread nD τ).loc main_arg4)) (m ((c : Thread nD τ).loc main_arg5))

abbrev h2Of := Cert.Spec.layer (srcOf m c) (dstOf m c) (h1Of m c)
  (m ((c : Thread nD τ).loc main_arg6)) (m ((c : Thread nD τ).loc main_arg7)) (m ((c : Thread nD τ).loc main_arg8))

theorem w1_of (b : Ref sig .tc) (hb : b ∉ hostOps0_W) :
    W1 m ρ c (Proc.devRef .tc b) = m ((c : Thread nD τ).loc b) :=
  StableHlo.after_of_writes_sub hostOps0 _ hostOps0_writes hb

theorem w4_of (b : Ref sig .tc) (h0 : ∀ w, Pipeline.arrRef spec0 w ≠ b) (h1 : ∀ w, Pipeline.arrRef spec1 w ≠ b)
    (h2 : b ∉ hostOps2_W) : W4 m ρ c (Proc.devRef .tc b) = W1 m ρ c (Proc.devRef .tc b) :=
  (StableHlo.after_of_writes_sub hostOps2 _ hostOps2_writes h2).trans
    ((W3_of_ne m ρ c b h1).trans (W2_of_ne m ρ c b h0))

theorem w9_of (b : Ref sig .tc) (h2 : ∀ w, Pipeline.arrRef spec2 w ≠ b) (h3 : b ∉ hostOps3_W)
    (h3' : ∀ w, Pipeline.arrRef spec3 w ≠ b) (h4 : ∀ w, Pipeline.arrRef spec4 w ≠ b) (h5 : b ∉ hostOps5_W) :
    W9 m ρ c (Proc.devRef .tc b) = W4 m ρ c (Proc.devRef .tc b) :=
  (StableHlo.after_of_writes_sub hostOps5 _ hostOps5_writes h5).trans
    ((W8_of_ne m ρ c b h4).trans ((W7_of_ne m ρ c b h3').trans
      ((StableHlo.after_of_writes_sub hostOps3 _ hostOps3_writes h3).trans (W5_of_ne m ρ c b h2))))

theorem w1_v2 : W1 m ρ c (Proc.devRef .tc main_v2) = srcOf m c := h0_v2 (W0 m ρ c)

theorem w1_v5 : W1 m ρ c (Proc.devRef .tc main_v5) = dstOf m c := h0_v5 (W0 m ρ c)

theorem w1_v6 : W1 m ρ c (Proc.devRef .tc main_v6) = bidOf m c := h0_v6 (W0 m ρ c)

theorem w1_v7 : W1 m ρ c (Proc.devRef .tc main_v7) = m ((c : Thread nD τ).loc main_arg3) := h0_v7 (W0 m ρ c)

theorem w1_v8 : W1 m ρ c (Proc.devRef .tc main_v8) = m ((c : Thread nD τ).loc main_arg5) := h0_v8 (W0 m ρ c)

theorem w1_v9 : W1 m ρ c (Proc.devRef .tc main_v9) = m ((c : Thread nD τ).loc main_arg6) := h0_v9 (W0 m ρ c)

theorem w1_v10 : W1 m ρ c (Proc.devRef .tc main_v10) = m ((c : Thread nD τ).loc main_arg8) := h0_v10 (W0 m ρ c)

theorem w1_v11 : W1 m ρ c (Proc.devRef .tc main_v11) = m ((c : Thread nD τ).loc main_arg9) := h0_v11 (W0 m ρ c)

theorem w1_v12 : W1 m ρ c (Proc.devRef .tc main_v12) = m ((c : Thread nD τ).loc main_arg0) := h0_v12 (W0 m ρ c)

theorem w2_v2 : W2 m ρ c (Proc.devRef .tc main_v2) = srcOf m c :=
  ((W2_arr m ρ c 0).trans (((dat0 (V1 m ρ) c).arrAt_in 0 rfl _).trans (A_eq0 (V1 m ρ) c 0))).trans (w1_v2 m ρ c)

theorem w2_v5 : W2 m ρ c (Proc.devRef .tc main_v5) = dstOf m c :=
  (W2_of_ne m ρ c main_v5 (by decide)).trans (w1_v5 m ρ c)

theorem w2_v13 : W2 m ρ c (Proc.devRef .tc main_v13) = Cert.Spec.gatherOH (srcOf m c) (m ((c : Thread nD τ).loc main_arg0)) := by
  refine (W2_arr m ρ c 2).trans ((val0 (V1 m ρ) c).trans ?_)
  show Cert.Spec.gatherOH (W1 m ρ c (Proc.devRef .tc main_v2)) (W1 m ρ c (Proc.devRef .tc main_v12)) = _
  rw [w1_v2, w1_v12]

theorem w3_v5 : W3 m ρ c (Proc.devRef .tc main_v5) = dstOf m c :=
  ((W3_arr m ρ c 0).trans (((dat1 (V2 m ρ) c).arrAt_in 0 rfl _).trans (A_eq1 (V2 m ρ) c 0))).trans (w2_v5 m ρ c)

theorem w3_v14 : W3 m ρ c (Proc.devRef .tc main_v14)
    = Cert.Spec.scatterOH (N := 100000) (dstOf m c) (Cert.Spec.gatherOH (srcOf m c) (m ((c : Thread nD τ).loc main_arg0))) := by
  refine (W3_arr m ρ c 2).trans ((val1 (V2 m ρ) c).trans ?_)
  show Cert.Spec.scatterOH (W2 m ρ c (Proc.devRef .tc main_v5)) (W2 m ρ c (Proc.devRef .tc main_v13)) = _
  rw [w2_v5, w2_v13]

theorem w4_v23 : W4 m ρ c (Proc.devRef .tc main_v23) = Cert.Spec.meanAgg (dstOf m c)
    (Cert.Spec.scatterOH (N := 100000) (dstOf m c) (Cert.Spec.gatherOH (srcOf m c) (m ((c : Thread nD τ).loc main_arg0)))) := by
  refine (h2_v23 (W3 m ρ c)).trans ?_
  rw [w3_v5, w3_v14]

theorem w4_arg0 : W4 m ρ c (Proc.devRef .tc main_arg0) = m ((c : Thread nD τ).loc main_arg0) :=
  (w4_of m ρ c main_arg0 (by decide) (by decide) (by decide)).trans (w1_of m ρ c main_arg0 (by decide))

theorem w4_arg4 : W4 m ρ c (Proc.devRef .tc main_arg4) = m ((c : Thread nD τ).loc main_arg4) :=
  (w4_of m ρ c main_arg4 (by decide) (by decide) (by decide)).trans (w1_of m ρ c main_arg4 (by decide))

theorem w4_v7 : W4 m ρ c (Proc.devRef .tc main_v7) = m ((c : Thread nD τ).loc main_arg3) :=
  (w4_of m ρ c main_v7 (by decide) (by decide) (by decide)).trans (w1_v7 m ρ c)

theorem w4_v8 : W4 m ρ c (Proc.devRef .tc main_v8) = m ((c : Thread nD τ).loc main_arg5) :=
  (w4_of m ρ c main_v8 (by decide) (by decide) (by decide)).trans (w1_v8 m ρ c)

theorem w5_v24 : W5 m ρ c (Proc.devRef .tc main_v24) = h1Of m c := by
  refine (W5_arr m ρ c 5).trans ((val2 (V4 m ρ) c).trans ?_)
  show Cert.Spec.combine (W4 m ρ c (Proc.devRef .tc main_v23)) (W4 m ρ c (Proc.devRef .tc main_arg0)) (W4 m ρ c (Proc.devRef .tc main_v7))
    (W4 m ρ c (Proc.devRef .tc main_arg4)) (W4 m ρ c (Proc.devRef .tc main_v8)) = _
  rw [w4_v23, w4_arg0, w4_v7, w4_arg4, w4_v8]
  rfl

theorem w6_v25 : W6 m ρ c (Proc.devRef .tc main_v25) = h1Of m c := (h3_v25 (W5 m ρ c)).trans (w5_v24 m ρ c)

theorem w6_v2 : W6 m ρ c (Proc.devRef .tc main_v2) = srcOf m c :=
  (StableHlo.after_of_writes_sub hostOps3 _ hostOps3_writes (by decide)).trans ((W5_of_ne m ρ c main_v2 (by decide)).trans
    ((StableHlo.after_of_writes_sub hostOps2 _ hostOps2_writes (by decide)).trans
      ((W3_of_ne m ρ c main_v2 (by decide)).trans (w2_v2 m ρ c))))

theorem w7_v26 : W7 m ρ c (Proc.devRef .tc main_v26) = Cert.Spec.gatherOH (srcOf m c) (h1Of m c) := by
  refine (W7_arr m ρ c 2).trans ((val3 (V6 m ρ) c).trans ?_)
  show Cert.Spec.gatherOH (W6 m ρ c (Proc.devRef .tc main_v2)) (W6 m ρ c (Proc.devRef .tc main_v25)) = _
  rw [w6_v2, w6_v25]

theorem w7_v5 : W7 m ρ c (Proc.devRef .tc main_v5) = dstOf m c :=
  (W7_of_ne m ρ c main_v5 (by decide)).trans ((StableHlo.after_of_writes_sub hostOps3 _ hostOps3_writes (by decide)).trans
    ((W5_of_ne m ρ c main_v5 (by decide)).trans
      ((StableHlo.after_of_writes_sub hostOps2 _ hostOps2_writes (by decide)).trans (w3_v5 m ρ c))))

theorem w8_v5 : W8 m ρ c (Proc.devRef .tc main_v5) = dstOf m c :=
  ((W8_arr m ρ c 0).trans (((dat4 (V7 m ρ) c).arrAt_in 0 rfl _).trans (A_eq4 (V7 m ρ) c 0))).trans (w7_v5 m ρ c)

theorem w8_v27 : W8 m ρ c (Proc.devRef .tc main_v27)
    = Cert.Spec.scatterOH (N := 100000) (dstOf m c) (Cert.Spec.gatherOH (srcOf m c) (h1Of m c)) := by
  refine (W8_arr m ρ c 2).trans ((val4 (V7 m ρ) c).trans ?_)
  show Cert.Spec.scatterOH (W7 m ρ c (Proc.devRef .tc main_v5)) (W7 m ρ c (Proc.devRef .tc main_v26)) = _
  rw [w7_v5, w7_v26]

theorem w9_v36 : W9 m ρ c (Proc.devRef .tc main_v36) = Cert.Spec.meanAgg (dstOf m c)
    (Cert.Spec.scatterOH (N := 100000) (dstOf m c) (Cert.Spec.gatherOH (srcOf m c) (h1Of m c))) := by
  refine (h5_v36 (W8 m ρ c)).trans ?_
  rw [w8_v5, w8_v27]

theorem w9_v24 : W9 m ρ c (Proc.devRef .tc main_v24) = h1Of m c :=
  (StableHlo.after_of_writes_sub hostOps5 _ hostOps5_writes (by decide)).trans ((W8_of_ne m ρ c main_v24 (by decide)).trans
    ((W7_of_ne m ρ c main_v24 (by decide)).trans
      ((StableHlo.after_of_writes_sub hostOps3 _ hostOps3_writes (by decide)).trans (w5_v24 m ρ c))))

theorem w9_v9 : W9 m ρ c (Proc.devRef .tc main_v9) = m ((c : Thread nD τ).loc main_arg6) :=
  (w9_of m ρ c main_v9 (by decide) (by decide) (by decide) (by decide) (by decide)).trans
    ((w4_of m ρ c main_v9 (by decide) (by decide) (by decide)).trans (w1_v9 m ρ c))

theorem w9_v10 : W9 m ρ c (Proc.devRef .tc main_v10) = m ((c : Thread nD τ).loc main_arg8) :=
  (w9_of m ρ c main_v10 (by decide) (by decide) (by decide) (by decide) (by decide)).trans
    ((w4_of m ρ c main_v10 (by decide) (by decide) (by decide)).trans (w1_v10 m ρ c))

theorem w9_arg7 : W9 m ρ c (Proc.devRef .tc main_arg7) = m ((c : Thread nD τ).loc main_arg7) :=
  (w9_of m ρ c main_arg7 (by decide) (by decide) (by decide) (by decide) (by decide)).trans
    ((w4_of m ρ c main_arg7 (by decide) (by decide) (by decide)).trans (w1_of m ρ c main_arg7 (by decide)))

theorem w10_v37 : W10 m ρ c (Proc.devRef .tc main_v37) = h2Of m c := by
  refine (W10_arr m ρ c 5).trans ((val5 (V9 m ρ) c).trans ?_)
  show Cert.Spec.combine (W9 m ρ c (Proc.devRef .tc main_v36)) (W9 m ρ c (Proc.devRef .tc main_v24)) (W9 m ρ c (Proc.devRef .tc main_v9))
    (W9 m ρ c (Proc.devRef .tc main_arg7)) (W9 m ρ c (Proc.devRef .tc main_v10)) = _
  rw [w9_v36, w9_v24, w9_v9, w9_arg7, w9_v10]
  rfl

theorem w10_v6 : W10 m ρ c (Proc.devRef .tc main_v6) = bidOf m c :=
  (W10_of_ne m ρ c main_v6 (by decide)).trans ((w9_of m ρ c main_v6 (by decide) (by decide) (by decide) (by decide) (by decide)).trans
    ((w4_of m ρ c main_v6 (by decide) (by decide) (by decide)).trans (w1_v6 m ρ c)))

theorem w10_v11 : W10 m ρ c (Proc.devRef .tc main_v11) = m ((c : Thread nD τ).loc main_arg9) :=
  (W10_of_ne m ρ c main_v11 (by decide)).trans ((w9_of m ρ c main_v11 (by decide) (by decide) (by decide) (by decide) (by decide)).trans
    ((w4_of m ρ c main_v11 (by decide) (by decide) (by decide)).trans (w1_v11 m ρ c)))

theorem w10_arg10 : W10 m ρ c (Proc.devRef .tc main_arg10) = m ((c : Thread nD τ).loc main_arg10) :=
  (W10_of_ne m ρ c main_arg10 (by decide)).trans ((w9_of m ρ c main_arg10 (by decide) (by decide) (by decide) (by decide) (by decide)).trans
    ((w4_of m ρ c main_arg10 (by decide) (by decide) (by decide)).trans (w1_of m ρ c main_arg10 (by decide))))

end Items

end Chain

section
variable (m : (ℓ : Loc nD τ sig) → Buf (Elt Ideal) ℓ) (ρ : Dev nD → PrngReg) (c : Dev nD)
open Chain

theorem result_value : W11 m ρ c (Proc.devRef .tc main_v38)
    = Cert.Spec.model (Cert.Spec.rowCol 0 (m ((c : Thread nD τ).loc main_arg1))) (Cert.Spec.rowCol 1 (m ((c : Thread nD τ).loc main_arg1))) (Cert.Spec.vecCol (m ((c : Thread nD τ).loc main_arg2)))
        (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W11_arr m ρ c 4).trans ((val6 (V10 m ρ) c).trans ?_)
  show Cert.Spec.poolLin (N := 100000) (G := 2000) (d := 256) (O := 12) (W10 m ρ c (Proc.devRef .tc main_v37))
    (W10 m ρ c (Proc.devRef .tc main_v6)) (W10 m ρ c (Proc.devRef .tc main_v11)) (W10 m ρ c (Proc.devRef .tc main_arg10)) = _
  rw [w10_v37, w10_v6, w10_v11, w10_arg10]
  rfl

end

end Cert.KernelIdeal.Hand

end
-- ==== Proof.RefValue.lean ====
import proofs.«423955_j37598143709627_1_alg».proof.Defs
import proofs.«423955_j37598143709627_1_alg».proof.Proof.Gen.ReferenceIdeal.Run
import proofs.«423955_j37598143709627_1_alg».proof.Proof.Gen.ReferenceIdeal.Read
import proofs.«423955_j37598143709627_1_alg».proof.Proof.Spec
import proofs.«423955_j37598143709627_1_alg».proof.Proof.LibGraphOps
import Idealize.ShloMosaic.Lib.IdealHost
import Idealize.ShloMosaic.Lib.Pipeline.Value

noncomputable section

open scoped BigOperators

namespace Cert.ReferenceIdeal.RefValue

open Idealize.ShloMosaic Idealize.ShloMosaic.ValueIdx

abbrev matDot (N K M : ℕ) (h : DotDims.WF (⟨2, ![N, K]⟩ : Shape) (⟨2, ![K, M]⟩ : Shape) (⟨2, ![N, M]⟩ : Shape) [1] [0] [0] [1] [] []) :
    DotDims (⟨2, ![N, K]⟩ : Shape) (⟨2, ![K, M]⟩ : Shape) (⟨2, ![N, M]⟩ : Shape) :=
  { lhsContracting := [1], rhsContracting := [0], lhsNonContracting := [0], rhsNonContracting := [1],
    lhsBatch := [], rhsBatch := [], wf := h }

section
variable {N K M : ℕ} (h : DotDims.WF (⟨2, ![N, K]⟩ : Shape) (⟨2, ![K, M]⟩ : Shape) (⟨2, ![N, M]⟩ : Shape) [1] [0] [0] [1] [] [])

theorem matDot_lhs0 (i : (⟨2, ![N, M]⟩ : Shape).Idx) (q : (matDot N K M h).contr.Idx) :
    ((matDot N K M h).lhsIdx i q 0).val = (i 0).val := by
  unfold DotDims.lhsIdx
  rw [dif_neg (show ¬(0 : Fin (⟨2, ![N, K]⟩ : Shape).rank) ∈ (matDot N K M h).lhsBatch from List.not_mem_nil),
    dif_pos (show (0 : Fin (⟨2, ![N, K]⟩ : Shape).rank) ∈ (matDot N K M h).lhsNonContracting from List.mem_singleton.mpr rfl)]
  rfl

theorem matDot_lhs1 (i : (⟨2, ![N, M]⟩ : Shape).Idx) (q : (matDot N K M h).contr.Idx) :
    ((matDot N K M h).lhsIdx i q 1).val = (q ⟨0, Nat.zero_lt_one⟩).val :=
  (matDot N K M h).lhsIdx_val_of_single rfl i q

theorem matDot_rhs0 (i : (⟨2, ![N, M]⟩ : Shape).Idx) (q : (matDot N K M h).contr.Idx) :
    ((matDot N K M h).rhsIdx i q 0).val = (q ⟨0, Nat.zero_lt_one⟩).val :=
  (matDot N K M h).rhsIdx_val_of_single rfl i q

theorem matDot_rhs1 (i : (⟨2, ![N, M]⟩ : Shape).Idx) (q : (matDot N K M h).contr.Idx) :
    ((matDot N K M h).rhsIdx i q 1).val = (i 1).val := by
  unfold DotDims.rhsIdx
  rw [dif_neg (show ¬(1 : Fin (⟨2, ![K, M]⟩ : Shape).rank) ∈ (matDot N K M h).rhsBatch from List.not_mem_nil),
    dif_pos (show (1 : Fin (⟨2, ![K, M]⟩ : Shape).rank) ∈ (matDot N K M h).rhsNonContracting from List.mem_singleton.mpr rfl)]
  rfl

theorem dot_rows (l : FVec Ideal (⟨2, ![N, K]⟩ : Shape) .f32) (r : FVec Ideal (⟨2, ![K, M]⟩ : Shape) .f32)
    (n : Fin N) (o : Fin M) :
    Host.dotGeneral (matDot N K M h) none l r (ix2 n o) = ∑ k : Fin K, l (ix2 n k) * r (ix2 k o) := by
  generalize hi : (ix2 n o : (⟨2, ![N, M]⟩ : Shape).Idx) = i
  have hi0 : (i 0).val = n.val := by rw [← hi]; rfl
  have hi1 : (i 1).val = o.val := by rw [← hi]; rfl
  simp only [Host.dotGeneral]
  rw [Ideal.dotGeneral_apply, ← Equiv.sum_comp (contrEquiv1 (matDot N K M h) K rfl rfl).symm]
  refine Finset.sum_congr rfl fun k _ => ?_
  have hk := contrEquiv1_symm_val (matDot N K M h) K rfl rfl k
  have el : (matDot N K M h).lhsIdx i ((contrEquiv1 (matDot N K M h) K rfl rfl).symm k) = ix2 n k :=
    funext fun a => Fin.ext (by
      match a with
      | ⟨0, _⟩ => exact (matDot_lhs0 h _ _).trans hi0
      | ⟨1, _⟩ => exact (matDot_lhs1 h _ _).trans hk)
  have er : (matDot N K M h).rhsIdx i ((contrEquiv1 (matDot N K M h) K rfl rfl).symm k) = ix2 k o :=
    funext fun a => Fin.ext (by
      match a with
      | ⟨0, _⟩ => exact (matDot_rhs0 h _ _).trans hk
      | ⟨1, _⟩ => exact (matDot_rhs1 h _ _).trans hi1)
  rw [el, er]

end

section Columns
variable {E : ℕ}

theorem row0_flat (ei : IVec (⟨2, ![2, E]⟩ : Shape) 32)
    (hs : (⟨2, ![2, E]⟩ : Shape).Slices ![0, 0] (⟨2, ![1, E]⟩ : Shape))
    (hc : (⟨2, ![1, E]⟩ : Shape).ShapeCasts (⟨1, ![E]⟩ : Shape)) (e : Fin E) :
    shapeCast (⟨1, ![E]⟩ : Shape) (extractStridedSlice (⟨2, ![1, E]⟩ : Shape) ![0, 0] ei hs) hc (ix1 e)
      = ei (ix2 (0 : Fin 2) e) := by
  rw [shapeCast_apply _ hc (ix1 e) (ix2 (0 : Fin 1) e) (by
    rw [Shape.rowMajor_val_two, Shape.rowMajor_val_one]; show 0 * E + e.val = e.val; omega)]
  exact extractStridedSlice_apply _ ei hs _ (ix2 (0 : Fin 2) e) (fun a => by
    match a with
    | ⟨0, _⟩ => rfl
    | ⟨1, _⟩ => show e.val = 0 + e.val; omega)

theorem row1_flat (ei : IVec (⟨2, ![2, E]⟩ : Shape) 32)
    (hs : (⟨2, ![2, E]⟩ : Shape).Slices ![1, 0] (⟨2, ![1, E]⟩ : Shape))
    (hc : (⟨2, ![1, E]⟩ : Shape).ShapeCasts (⟨1, ![E]⟩ : Shape)) (e : Fin E) :
    shapeCast (⟨1, ![E]⟩ : Shape) (extractStridedSlice (⟨2, ![1, E]⟩ : Shape) ![1, 0] ei hs) hc (ix1 e)
      = ei (ix2 (1 : Fin 2) e) := by
  rw [shapeCast_apply _ hc (ix1 e) (ix2 (0 : Fin 1) e) (by
    rw [Shape.rowMajor_val_two, Shape.rowMajor_val_one]; show 0 * E + e.val = e.val; omega)]
  exact extractStridedSlice_apply _ ei hs _ (ix2 (1 : Fin 2) e) (fun a => by
    match a with
    | ⟨0, _⟩ => rfl
    | ⟨1, _⟩ => show e.val = 0 + e.val; omega)

theorem col_apply {α : Type} (v : (⟨1, ![E]⟩ : Shape).Idx → α)
    (hb : (⟨1, ![E]⟩ : Shape).BroadcastsInDim (⟨2, ![E, 1]⟩ : Shape) ![0]) (e : Fin E) (u : Fin 1) :
    broadcastInDim (⟨2, ![E, 1]⟩ : Shape) ![0] hb v (ix2 e u) = v (ix1 e) := by
  refine broadcastInDim_apply _ hb v (ix2 e u) (ix1 e) (fun a => ?_)
  match a with
  | ⟨0, _⟩ =>
    show e.val = if E = 1 then 0 else e.val
    have := e.isLt
    split_ifs <;> omega

theorem wrap_nonneg (x c : BitVec 32) (hx : 0 ≤ x.toInt) :
    Scalar.select (IntOp.cmpi .slt x 0#32) (IntOp.addi x c) x = x := by
  have hlt : x.slt 0#32 = false := by
    rw [Bool.eq_false_iff, ne_eq, BitVec.slt_iff_toInt_lt]
    simpa using hx
  unfold Scalar.select IntOp.cmpi
  simp [hlt]

theorem srcCol_eq (ei : IVec (⟨2, ![2, E]⟩ : Shape) 32)
    (hs : (⟨2, ![2, E]⟩ : Shape).Slices ![0, 0] (⟨2, ![1, E]⟩ : Shape))
    (hc : (⟨2, ![1, E]⟩ : Shape).ShapeCasts (⟨1, ![E]⟩ : Shape))
    (hb0 : (⟨0, ![]⟩ : Shape).BroadcastsInDim (⟨1, ![E]⟩ : Shape) ![])
    (hb : (⟨1, ![E]⟩ : Shape).BroadcastsInDim (⟨2, ![E, 1]⟩ : Shape) ![0]) (c : BitVec 32)
    (hnn : ∀ e : Fin E, 0 ≤ (ei (ix2 (0 : Fin 2) e)).toInt) :
    broadcastInDim (⟨2, ![E, 1]⟩ : Shape) ![0] hb
      (select
        (cmpi .slt (shapeCast (⟨1, ![E]⟩ : Shape) (extractStridedSlice (⟨2, ![1, E]⟩ : Shape) ![0, 0] ei hs) hc)
          (broadcastInDim (⟨1, ![E]⟩ : Shape) ![] hb0 (constantI (⟨0, ![]⟩ : Shape) 32 0#32)))
        (addi (shapeCast (⟨1, ![E]⟩ : Shape) (extractStridedSlice (⟨2, ![1, E]⟩ : Shape) ![0, 0] ei hs) hc)
          (broadcastInDim (⟨1, ![E]⟩ : Shape) ![] hb0 (constantI (⟨0, ![]⟩ : Shape) 32 c)))
        (shapeCast (⟨1, ![E]⟩ : Shape) (extractStridedSlice (⟨2, ![1, E]⟩ : Shape) ![0, 0] ei hs) hc))
      = Cert.Spec.rowCol 0 ei := by
  funext j
  obtain ⟨e, u, rfl⟩ : ∃ (e : Fin E) (u : Fin 1), j = ix2 e u := ⟨j 0, j 1, eq_ix2 j⟩
  rw [col_apply]
  simp only [select, cmpi, addi]
  rw [row0_flat, broadcastInDim_scalar_apply, broadcastInDim_scalar_apply]
  exact wrap_nonneg _ _ (hnn e)

theorem dstCol_eq (ei : IVec (⟨2, ![2, E]⟩ : Shape) 32)
    (hs : (⟨2, ![2, E]⟩ : Shape).Slices ![1, 0] (⟨2, ![1, E]⟩ : Shape))
    (hc : (⟨2, ![1, E]⟩ : Shape).ShapeCasts (⟨1, ![E]⟩ : Shape))
    (hb : (⟨1, ![E]⟩ : Shape).BroadcastsInDim (⟨2, ![E, 1]⟩ : Shape) ![0]) :
    broadcastInDim (⟨2, ![E, 1]⟩ : Shape) ![0] hb
      (shapeCast (⟨1, ![E]⟩ : Shape) (extractStridedSlice (⟨2, ![1, E]⟩ : Shape) ![1, 0] ei hs) hc)
      = Cert.Spec.rowCol 1 ei := by
  funext j
  obtain ⟨e, u, rfl⟩ : ∃ (e : Fin E) (u : Fin 1), j = ix2 e u := ⟨j 0, j 1, eq_ix2 j⟩
  rw [col_apply, row1_flat]
  rfl

theorem vecCol_eq (v : IVec (⟨1, ![E]⟩ : Shape) 32)
    (hb : (⟨1, ![E]⟩ : Shape).BroadcastsInDim (⟨2, ![E, 1]⟩ : Shape) ![0]) :
    broadcastInDim (⟨2, ![E, 1]⟩ : Shape) ![0] hb v = Cert.Spec.vecCol v := by
  funext j
  obtain ⟨e, u, rfl⟩ : ∃ (e : Fin E) (u : Fin 1), j = ix2 e u := ⟨j 0, j 1, eq_ix2 j⟩
  rw [col_apply]
  rfl

end Columns

section Broadcasts
variable {N D M : ℕ}

theorem colBcast_apply {α : Type} (v : (⟨2, ![N, 1]⟩ : Shape).Idx → α)
    (hb : (⟨2, ![N, 1]⟩ : Shape).BroadcastsInDim (⟨2, ![N, D]⟩ : Shape) ![0, 1]) (n : Fin N) (k : Fin D) :
    broadcastInDim (⟨2, ![N, D]⟩ : Shape) ![0, 1] hb v (ix2 n k) = v (ix2 n (0 : Fin 1)) := by
  refine broadcastInDim_apply _ hb v (ix2 n k) (ix2 n (0 : Fin 1)) (fun a => ?_)
  match a with
  | ⟨0, _⟩ =>
    show n.val = if N = 1 then 0 else n.val
    have := n.isLt
    split_ifs <;> omega
  | ⟨1, _⟩ => exact (if_pos rfl).symm

theorem biasBcast_apply {α : Type} (b : (⟨1, ![M]⟩ : Shape).Idx → α)
    (h1 : (⟨1, ![M]⟩ : Shape).BroadcastsInDim (⟨2, ![1, M]⟩ : Shape) ![1])
    (h2 : (⟨2, ![1, M]⟩ : Shape).BroadcastsInDim (⟨2, ![N, M]⟩ : Shape) ![0, 1]) (n : Fin N) (o : Fin M) :
    broadcastInDim (⟨2, ![N, M]⟩ : Shape) ![0, 1] h2 (broadcastInDim (⟨2, ![1, M]⟩ : Shape) ![1] h1 b) (ix2 n o) = b (ix1 o) := by
  rw [broadcastInDim_apply _ h2 _ (ix2 n o) (ix2 (0 : Fin 1) o) (fun a => by
    match a with
    | ⟨0, _⟩ => exact (if_pos rfl).symm
    | ⟨1, _⟩ =>
      show o.val = if M = 1 then 0 else o.val
      have := o.isLt
      split_ifs <;> omega)]
  refine broadcastInDim_apply _ h1 b (ix2 (0 : Fin 1) o) (ix1 o) (fun a => ?_)
  match a with
  | ⟨0, _⟩ =>
    show o.val = if M = 1 then 0 else o.val
    have := o.isLt
    split_ifs <;> omega

theorem zeroBcast_apply {T : Shape} (h : (⟨0, ![]⟩ : Shape).BroadcastsInDim T ![]) (j : T.Idx) :
    broadcastInDim T ![] h (constant (F := Ideal) (⟨0, ![]⟩ : Shape) .f32 0x00000000#32) j = 0 := by
  rw [broadcastInDim_scalar_apply]
  exact Ideal.ofBits_zero_f32

theorem oneBcast_apply {T : Shape} (h : (⟨0, ![]⟩ : Shape).BroadcastsInDim T ![]) (j : T.Idx) :
    broadcastInDim T ![] h (constant (F := Ideal) (⟨0, ![]⟩ : Shape) .f32 0x3F800000#32) j = 1 := by
  rw [broadcastInDim_scalar_apply]
  exact Ideal.ofBits_one_f32

end Broadcasts

section Layer
variable {N E D M : ℕ}

theorem layer_eq (hN : N ≤ 2 ^ 31)
    (hg : GatherDims.WF (⟨2, ![N, D]⟩ : Shape) (⟨2, ![E, 1]⟩ : Shape) (⟨2, ![E, D]⟩ : Shape) [1] [0] [] [0] [] 1 ![1, D])
    (hs : ScatterDims.WF (⟨2, ![N, D]⟩ : Shape) (⟨2, ![E, 1]⟩ : Shape) (⟨2, ![E, D]⟩ : Shape) [1] [0] [0] 1)
    (hs1 : ScatterDims.WF (⟨2, ![N, 1]⟩ : Shape) (⟨2, ![E, 1]⟩ : Shape) (⟨2, ![E, 1]⟩ : Shape) [1] [0] [0] 1)
    (hd : DotDims.WF (⟨2, ![N, D]⟩ : Shape) (⟨2, ![D, M]⟩ : Shape) (⟨2, ![N, M]⟩ : Shape) [1] [0] [0] [1] [] [])
    (hb : (⟨2, ![N, 1]⟩ : Shape).BroadcastsInDim (⟨2, ![N, D]⟩ : Shape) ![0, 1])
    (src dst : (⟨2, ![E, 1]⟩ : Shape).Idx → BitVec 32)
    (hin : ∀ e : Fin E, 0 ≤ (src (ix2 e (0 : Fin 1))).toInt ∧ (src (ix2 e (0 : Fin 1))).toInt < N)
    (x : FVec Ideal (⟨2, ![N, D]⟩ : Shape) .f32) (wl wr : FVec Ideal (⟨2, ![D, M]⟩ : Shape) .f32)
    (b : FVec Ideal (⟨1, ![M]⟩ : Shape) .f32)
    (zD : FVec Ideal (⟨2, ![N, D]⟩ : Shape) .f32) (hzD : ∀ j, zD j = 0)
    (z1 : FVec Ideal (⟨2, ![N, 1]⟩ : Shape) .f32) (hz1 : ∀ j, z1 j = 0)
    (o1 : FVec Ideal (⟨2, ![E, 1]⟩ : Shape) .f32) (ho1 : ∀ j, o1 j = 1)
    (oN : FVec Ideal (⟨2, ![N, 1]⟩ : Shape) .f32) (hoN : ∀ j, oN j = 1)
    (bb : FVec Ideal (⟨2, ![N, M]⟩ : Shape) .f32) (hbb : ∀ (n : Fin N) (o : Fin M), bb (ix2 n o) = b (ix1 o))
    (zM : FVec Ideal (⟨2, ![N, M]⟩ : Shape) .f32) (hzM : ∀ j, zM j = 0) :
    maximumf
      (addf
        (addf
          (Host.dotGeneral (matDot N D M hd) none
            (Host.divf (Host.scatterAdd (Cert.GraphOps.rowScatter N E D hs) zD dst (Host.gather (Cert.GraphOps.rowGather N E D hg) x src))
              (broadcastInDim (⟨2, ![N, D]⟩ : Shape) ![0, 1] hb
                (maximumf (Host.scatterAdd (Cert.GraphOps.rowScatter N E 1 hs1) z1 dst o1) oN)))
            wl)
          bb)
        (Host.dotGeneral (matDot N D M hd) none x wr))
      zM
    = Cert.Spec.layer src dst x wl b wr := by
  rw [Cert.GraphOps.gather_rows hN hg x src hin, Cert.GraphOps.scatterAdd_rows hN hs, Cert.GraphOps.scatterAdd_rows hN hs1, show o1 = fun _ => (1 : EReal) from funext ho1]
  funext j
  obtain ⟨n, o, rfl⟩ : ∃ (n : Fin N) (o : Fin M), j = ix2 n o := ⟨j 0, j 1, eq_ix2 j⟩
  show _ = max (((∑ k : Fin D, Cert.Spec.meanAgg dst (Cert.Spec.scatterOH (N := N) dst (Cert.Spec.gatherOH src x)) (ix2 n k) * wl (ix2 k o))
      + b (ix1 o)) + ∑ k : Fin D, x (ix2 n k) * wr (ix2 k o)) 0
  rw [maximumf_apply, addf_apply, addf_apply, dot_rows, dot_rows, hbb, hzM]
  refine congrArg (fun t => max ((t + b (ix1 o)) + ∑ k : Fin D, x (ix2 n k) * wr (ix2 k o)) 0)
    (Finset.sum_congr rfl fun k _ => congrArg (· * wl (ix2 k o)) ?_)
  rw [hostDivf_apply, colBcast_apply, maximumf_apply, hzD, hz1, hoN, zero_add, zero_add]
  rfl

theorem pool_eq {G O : ℕ} (hG : G ≤ 2 ^ 31)
    (hs : ScatterDims.WF (⟨2, ![G, D]⟩ : Shape) (⟨2, ![N, 1]⟩ : Shape) (⟨2, ![N, D]⟩ : Shape) [1] [0] [0] 1)
    (hd : DotDims.WF (⟨2, ![G, D]⟩ : Shape) (⟨2, ![D, O]⟩ : Shape) (⟨2, ![G, O]⟩ : Shape) [1] [0] [0] [1] [] [])
    (bid : (⟨2, ![N, 1]⟩ : Shape).Idx → BitVec 32)
    (h : FVec Ideal (⟨2, ![N, D]⟩ : Shape) .f32) (w : FVec Ideal (⟨2, ![D, O]⟩ : Shape) .f32)
    (b : FVec Ideal (⟨1, ![O]⟩ : Shape) .f32)
    (zD : FVec Ideal (⟨2, ![G, D]⟩ : Shape) .f32) (hzD : ∀ j, zD j = 0)
    (bb : FVec Ideal (⟨2, ![G, O]⟩ : Shape) .f32) (hbb : ∀ (g : Fin G) (o : Fin O), bb (ix2 g o) = b (ix1 o)) :
    addf (Host.dotGeneral (matDot G D O hd) none (Host.scatterAdd (Cert.GraphOps.rowScatter G N D hs) zD bid h) w) bb
    = Cert.Spec.poolLin h bid w b := by
  rw [Cert.GraphOps.scatterAdd_rows hG hs]
  funext j
  obtain ⟨g, o, rfl⟩ : ∃ (g : Fin G) (o : Fin O), j = ix2 g o := ⟨j 0, j 1, eq_ix2 j⟩
  show _ = (∑ k : Fin D, (∑ i : Fin N, Cert.Spec.oh (bid (ix2 i (0 : Fin 1))) (BitVec.ofNat 32 g.val) * h (ix2 i k)) * w (ix2 k o))
      + b (ix1 o)
  rw [addf_apply, dot_rows, hbb]
  refine congrArg (· + b (ix1 o)) (Finset.sum_congr rfl fun k _ => congrArg (· * w (ix2 k o)) ?_)
  rw [hzD, zero_add]
  rfl

end Layer

section Reference
open Cert.ReferenceIdeal Cert.ReferenceIdeal.Gen Cert.ReferenceIdeal.Value Idealize.ShloMosaic.TcCoe Idealize.SL.Sem

theorem layer128 (src dst : IVec S400000x1 32)
    (hin : ∀ e : Fin 400000, 0 ≤ (src (ix2 e (0 : Fin 1))).toInt ∧ (src (ix2 e (0 : Fin 1))).toInt < (100000 : ℕ))
    (x : FVec Ideal S100000x128 .f32) (wl : FVec Ideal S128x256 .f32) (b : FVec Ideal S256 .f32) (wr : FVec Ideal S128x256 .f32) :
    (maximumf (addf (addf (Host.dotGeneral dot_S100000x128_S128x256_S100000x256_1_0_0_1_n_n none (Host.divf (Host.scatterAdd scatter_S100000x128_S400000x1_S400000x128_1_0_0_1 (broadcastInDim S100000x128 ![] bcast_S_S100000x128 (constant S_ .f32 0x00000000#32)) dst (Host.gather gather_S100000x128_S400000x1_S400000x128_1_0_n_n_0_1_1128 x src)) (broadcastInDim S100000x128 ![0, 1] bcast_S100000x1_S100000x128_0_1 (maximumf (Host.scatterAdd scatter_S100000x1_S400000x1_S400000x1_1_0_0_1 (broadcastInDim S100000x1 ![] bcast_S_S100000x1 (constant S_ .f32 0x00000000#32)) dst (broadcastInDim S400000x1 ![] bcast_S_S400000x1 (constant S_ .f32 0x3F800000#32))) (broadcastInDim S100000x1 ![] bcast_S_S100000x1 (constant S_ .f32 0x3F800000#32))))) wl) (broadcastInDim S100000x256 ![0, 1] bcast_S1x256_S100000x256_0_1 (broadcastInDim S1x256 ![1] bcast_S256_S1x256_1 b))) (Host.dotGeneral dot_S100000x128_S128x256_S100000x256_1_0_0_1_n_n none x wr)) (broadcastInDim S100000x256 ![] bcast_S_S100000x256 (constant S_ .f32 0x00000000#32)))
      = Cert.Spec.layer src dst x wl b wr :=
  layer_eq (N := 100000) (E := 400000) (D := 128) (M := 256) (by norm_num) _ _ _ _ _ src dst hin x wl wr b
    _ (zeroBcast_apply _) _ (zeroBcast_apply _) _ (oneBcast_apply _) _ (oneBcast_apply _)
    _ (biasBcast_apply b _ _) _ (zeroBcast_apply _)

theorem layer256 (src dst : IVec S400000x1 32)
    (hin : ∀ e : Fin 400000, 0 ≤ (src (ix2 e (0 : Fin 1))).toInt ∧ (src (ix2 e (0 : Fin 1))).toInt < (100000 : ℕ))
    (x : FVec Ideal S100000x256 .f32) (wl : FVec Ideal S256x256 .f32) (b : FVec Ideal S256 .f32) (wr : FVec Ideal S256x256 .f32) :
    (maximumf (addf (addf (Host.dotGeneral dot_S100000x256_S256x256_S100000x256_1_0_0_1_n_n none (Host.divf (Host.scatterAdd scatter_S100000x256_S400000x1_S400000x256_1_0_0_1 (broadcastInDim S100000x256 ![] bcast_S_S100000x256 (constant S_ .f32 0x00000000#32)) dst (Host.gather gather_S100000x256_S400000x1_S400000x256_1_0_n_n_0_1_1256 x src)) (broadcastInDim S100000x256 ![0, 1] bcast_S100000x1_S100000x256_0_1 (maximumf (Host.scatterAdd scatter_S100000x1_S400000x1_S400000x1_1_0_0_1 (broadcastInDim S100000x1 ![] bcast_S_S100000x1 (constant S_ .f32 0x00000000#32)) dst (broadcastInDim S400000x1 ![] bcast_S_S400000x1 (constant S_ .f32 0x3F800000#32))) (broadcastInDim S100000x1 ![] bcast_S_S100000x1 (constant S_ .f32 0x3F800000#32))))) wl) (broadcastInDim S100000x256 ![0, 1] bcast_S1x256_S100000x256_0_1 (broadcastInDim S1x256 ![1] bcast_S256_S1x256_1 b))) (Host.dotGeneral dot_S100000x256_S256x256_S100000x256_1_0_0_1_n_n none x wr)) (broadcastInDim S100000x256 ![] bcast_S_S100000x256 (constant S_ .f32 0x00000000#32)))
      = Cert.Spec.layer src dst x wl b wr :=
  layer_eq (N := 100000) (E := 400000) (D := 256) (M := 256) (by norm_num) _ _ _ _ _ src dst hin x wl wr b
    _ (zeroBcast_apply _) _ (zeroBcast_apply _) _ (oneBcast_apply _) _ (oneBcast_apply _)
    _ (biasBcast_apply b _ _) _ (zeroBcast_apply _)

theorem pool2000 (bid : IVec S100000x1 32) (h : FVec Ideal S100000x256 .f32) (w : FVec Ideal S256x12 .f32) (b : FVec Ideal S12 .f32) :
    addf (Host.dotGeneral dot_S2000x256_S256x12_S2000x12_1_0_0_1_n_n none (Host.scatterAdd scatter_S2000x256_S100000x1_S100000x256_1_0_0_1 (broadcastInDim S2000x256 ![] bcast_S_S2000x256 (constant S_ .f32 0x00000000#32)) bid h) w) (broadcastInDim S2000x12 ![0, 1] bcast_S1x12_S2000x12_0_1 (broadcastInDim S1x12 ![1] bcast_S12_S1x12_1 b))
      = Cert.Spec.poolLin h bid w b :=
  pool_eq (N := 100000) (D := 256) (G := 2000) (O := 12) (by norm_num) _ _ bid h w b _ (zeroBcast_apply _) _ (biasBcast_apply b _ _)

def refTerm (a0 : FVec Ideal S100000x128 .f32) (a1 : IVec S2x400000 32) (a2 : IVec S100000 32) (a3 : FVec Ideal S128x256 .f32)
    (a4 : FVec Ideal S256 .f32) (a5 : FVec Ideal S128x256 .f32) (a6 : FVec Ideal S256x256 .f32) (a7 : FVec Ideal S256 .f32)
    (a8 : FVec Ideal S256x256 .f32) (a9 : FVec Ideal S256x12 .f32) (a10 : FVec Ideal S12 .f32) : FVec Ideal S2000x12 .f32 :=
  addf (Host.dotGeneral dot_S2000x256_S256x12_S2000x12_1_0_0_1_n_n none (Host.scatterAdd scatter_S2000x256_S100000x1_S100000x256_1_0_0_1 (broadcastInDim S2000x256 ![] bcast_S_S2000x256 (constant S_ .f32 0x00000000#32)) (broadcastInDim S100000x1 ![0] bcast_S100000_S100000x1_0 a2) (maximumf (addf (addf (Host.dotGeneral dot_S100000x256_S256x256_S100000x256_1_0_0_1_n_n none (Host.divf (Host.scatterAdd scatter_S100000x256_S400000x1_S400000x256_1_0_0_1 (broadcastInDim S100000x256 ![] bcast_S_S100000x256 (constant S_ .f32 0x00000000#32)) (broadcastInDim S400000x1 ![0] bcast_S400000_S400000x1_0 (shapeCast _ (extractStridedSlice S1x400000 ![1, 0] a1 slices_S2x400000_S1x400000_1_0) shapeCasts_S1x400000_S400000)) (Host.gather gather_S100000x256_S400000x1_S400000x256_1_0_n_n_0_1_1256 (maximumf (addf (addf (Host.dotGeneral dot_S100000x128_S128x256_S100000x256_1_0_0_1_n_n none (Host.divf (Host.scatterAdd scatter_S100000x128_S400000x1_S400000x128_1_0_0_1 (broadcastInDim S100000x128 ![] bcast_S_S100000x128 (constant S_ .f32 0x00000000#32)) (broadcastInDim S400000x1 ![0] bcast_S400000_S400000x1_0 (shapeCast _ (extractStridedSlice S1x400000 ![1, 0] a1 slices_S2x400000_S1x400000_1_0) shapeCasts_S1x400000_S400000)) (Host.gather gather_S100000x128_S400000x1_S400000x128_1_0_n_n_0_1_1128 a0 (broadcastInDim S400000x1 ![0] bcast_S400000_S400000x1_0 (select (cmpi .slt (shapeCast _ (extractStridedSlice S1x400000 ![0, 0] a1 slices_S2x400000_S1x400000_0_0) shapeCasts_S1x400000_S400000) (broadcastInDim S400000 ![] bcast_S_S400000 (constantI S_ 32 0#32))) (addi (shapeCast _ (extractStridedSlice S1x400000 ![0, 0] a1 slices_S2x400000_S1x400000_0_0) shapeCasts_S1x400000_S400000) (broadcastInDim S400000 ![] bcast_S_S400000 (constantI S_ 32 100000#32))) (shapeCast _ (extractStridedSlice S1x400000 ![0, 0] a1 slices_S2x400000_S1x400000_0_0) shapeCasts_S1x400000_S400000))))) (broadcastInDim S100000x128 ![0, 1] bcast_S100000x1_S100000x128_0_1 (maximumf (Host.scatterAdd scatter_S100000x1_S400000x1_S400000x1_1_0_0_1 (broadcastInDim S100000x1 ![] bcast_S_S100000x1 (constant S_ .f32 0x00000000#32)) (broadcastInDim S400000x1 ![0] bcast_S400000_S400000x1_0 (shapeCast _ (extractStridedSlice S1x400000 ![1, 0] a1 slices_S2x400000_S1x400000_1_0) shapeCasts_S1x400000_S400000)) (broadcastInDim S400000x1 ![] bcast_S_S400000x1 (constant S_ .f32 0x3F800000#32))) (broadcastInDim S100000x1 ![] bcast_S_S100000x1 (constant S_ .f32 0x3F800000#32))))) a3) (broadcastInDim S100000x256 ![0, 1] bcast_S1x256_S100000x256_0_1 (broadcastInDim S1x256 ![1] bcast_S256_S1x256_1 a4))) (Host.dotGeneral dot_S100000x128_S128x256_S100000x256_1_0_0_1_n_n none a0 a5)) (broadcastInDim S100000x256 ![] bcast_S_S100000x256 (constant S_ .f32 0x00000000#32))) (broadcastInDim S400000x1 ![0] bcast_S400000_S400000x1_0 (select (cmpi .slt (shapeCast _ (extractStridedSlice S1x400000 ![0, 0] a1 slices_S2x400000_S1x400000_0_0) shapeCasts_S1x400000_S400000) (broadcastInDim S400000 ![] bcast_S_S400000 (constantI S_ 32 0#32))) (addi (shapeCast _ (extractStridedSlice S1x400000 ![0, 0] a1 slices_S2x400000_S1x400000_0_0) shapeCasts_S1x400000_S400000) (broadcastInDim S400000 ![] bcast_S_S400000 (constantI S_ 32 100000#32))) (shapeCast _ (extractStridedSlice S1x400000 ![0, 0] a1 slices_S2x400000_S1x400000_0_0) shapeCasts_S1x400000_S400000))))) (broadcastInDim S100000x256 ![0, 1] bcast_S100000x1_S100000x256_0_1 (maximumf (Host.scatterAdd scatter_S100000x1_S400000x1_S400000x1_1_0_0_1 (broadcastInDim S100000x1 ![] bcast_S_S100000x1 (constant S_ .f32 0x00000000#32)) (broadcastInDim S400000x1 ![0] bcast_S400000_S400000x1_0 (shapeCast _ (extractStridedSlice S1x400000 ![1, 0] a1 slices_S2x400000_S1x400000_1_0) shapeCasts_S1x400000_S400000)) (broadcastInDim S400000x1 ![] bcast_S_S400000x1 (constant S_ .f32 0x3F800000#32))) (broadcastInDim S100000x1 ![] bcast_S_S100000x1 (constant S_ .f32 0x3F800000#32))))) a6) (broadcastInDim S100000x256 ![0, 1] bcast_S1x256_S100000x256_0_1 (broadcastInDim S1x256 ![1] bcast_S256_S1x256_1 a7))) (Host.dotGeneral dot_S100000x256_S256x256_S100000x256_1_0_0_1_n_n none (maximumf (addf (addf (Host.dotGeneral dot_S100000x128_S128x256_S100000x256_1_0_0_1_n_n none (Host.divf (Host.scatterAdd scatter_S100000x128_S400000x1_S400000x128_1_0_0_1 (broadcastInDim S100000x128 ![] bcast_S_S100000x128 (constant S_ .f32 0x00000000#32)) (broadcastInDim S400000x1 ![0] bcast_S400000_S400000x1_0 (shapeCast _ (extractStridedSlice S1x400000 ![1, 0] a1 slices_S2x400000_S1x400000_1_0) shapeCasts_S1x400000_S400000)) (Host.gather gather_S100000x128_S400000x1_S400000x128_1_0_n_n_0_1_1128 a0 (broadcastInDim S400000x1 ![0] bcast_S400000_S400000x1_0 (select (cmpi .slt (shapeCast _ (extractStridedSlice S1x400000 ![0, 0] a1 slices_S2x400000_S1x400000_0_0) shapeCasts_S1x400000_S400000) (broadcastInDim S400000 ![] bcast_S_S400000 (constantI S_ 32 0#32))) (addi (shapeCast _ (extractStridedSlice S1x400000 ![0, 0] a1 slices_S2x400000_S1x400000_0_0) shapeCasts_S1x400000_S400000) (broadcastInDim S400000 ![] bcast_S_S400000 (constantI S_ 32 100000#32))) (shapeCast _ (extractStridedSlice S1x400000 ![0, 0] a1 slices_S2x400000_S1x400000_0_0) shapeCasts_S1x400000_S400000))))) (broadcastInDim S100000x128 ![0, 1] bcast_S100000x1_S100000x128_0_1 (maximumf (Host.scatterAdd scatter_S100000x1_S400000x1_S400000x1_1_0_0_1 (broadcastInDim S100000x1 ![] bcast_S_S100000x1 (constant S_ .f32 0x00000000#32)) (broadcastInDim S400000x1 ![0] bcast_S400000_S400000x1_0 (shapeCast _ (extractStridedSlice S1x400000 ![1, 0] a1 slices_S2x400000_S1x400000_1_0) shapeCasts_S1x400000_S400000)) (broadcastInDim S400000x1 ![] bcast_S_S400000x1 (constant S_ .f32 0x3F800000#32))) (broadcastInDim S100000x1 ![] bcast_S_S100000x1 (constant S_ .f32 0x3F800000#32))))) a3) (broadcastInDim S100000x256 ![0, 1] bcast_S1x256_S100000x256_0_1 (broadcastInDim S1x256 ![1] bcast_S256_S1x256_1 a4))) (Host.dotGeneral dot_S100000x128_S128x256_S100000x256_1_0_0_1_n_n none a0 a5)) (broadcastInDim S100000x256 ![] bcast_S_S100000x256 (constant S_ .f32 0x00000000#32))) a8)) (broadcastInDim S100000x256 ![] bcast_S_S100000x256 (constant S_ .f32 0x00000000#32)))) a9) (broadcastInDim S2000x12 ![0, 1] bcast_S1x12_S2000x12_0_1 (broadcastInDim S1x12 ![1] bcast_S12_S1x12_1 a10))

theorem result_eq (a0 : FVec Ideal S100000x128 .f32) (a1 : IVec S2x400000 32) (a2 : IVec S100000 32) (a3 : FVec Ideal S128x256 .f32)
    (a4 : FVec Ideal S256 .f32) (a5 : FVec Ideal S128x256 .f32) (a6 : FVec Ideal S256x256 .f32) (a7 : FVec Ideal S256 .f32)
    (a8 : FVec Ideal S256x256 .f32) (a9 : FVec Ideal S256x12 .f32) (a10 : FVec Ideal S12 .f32)
    (hsrc : ∀ e : Fin 400000, 0 ≤ (a1 (ix2 (0 : Fin 2) e)).toInt ∧ (a1 (ix2 (0 : Fin 2) e)).toInt < 100000) :
    refTerm a0 a1 a2 a3 a4 a5 a6 a7 a8 a9 a10
      = Cert.Spec.model (Cert.Spec.rowCol 0 a1) (Cert.Spec.rowCol 1 a1) (Cert.Spec.vecCol a2) a0 a3 a4 a5 a6 a7 a8 a9 a10 := by
  have hS : (broadcastInDim S400000x1 ![0] bcast_S400000_S400000x1_0 (select (cmpi .slt (shapeCast _ (extractStridedSlice S1x400000 ![0, 0] a1 slices_S2x400000_S1x400000_0_0) shapeCasts_S1x400000_S400000) (broadcastInDim S400000 ![] bcast_S_S400000 (constantI S_ 32 0#32))) (addi (shapeCast _ (extractStridedSlice S1x400000 ![0, 0] a1 slices_S2x400000_S1x400000_0_0) shapeCasts_S1x400000_S400000) (broadcastInDim S400000 ![] bcast_S_S400000 (constantI S_ 32 100000#32))) (shapeCast _ (extractStridedSlice S1x400000 ![0, 0] a1 slices_S2x400000_S1x400000_0_0) shapeCasts_S1x400000_S400000))) = Cert.Spec.rowCol 0 a1 :=
    srcCol_eq a1 _ _ _ _ _ (fun e => (hsrc e).1)
  have hD : (broadcastInDim S400000x1 ![0] bcast_S400000_S400000x1_0 (shapeCast _ (extractStridedSlice S1x400000 ![1, 0] a1 slices_S2x400000_S1x400000_1_0) shapeCasts_S1x400000_S400000)) = Cert.Spec.rowCol 1 a1 :=
    dstCol_eq a1 _ _ _
  have hB : (broadcastInDim S100000x1 ![0] bcast_S100000_S100000x1_0 a2) = Cert.Spec.vecCol a2 :=
    vecCol_eq a2 _
  have hin : ∀ e : Fin 400000, 0 ≤ (Cert.Spec.rowCol 0 a1 (ix2 e (0 : Fin 1))).toInt
      ∧ (Cert.Spec.rowCol 0 a1 (ix2 e (0 : Fin 1))).toInt < (100000 : ℕ) :=
    fun e => ⟨(hsrc e).1, by exact_mod_cast (hsrc e).2⟩
  unfold refTerm
  rw [hS, hD, hB, layer128 _ _ hin, layer256 _ _ hin, pool2000]
  rfl

theorem res_eq (m' : (ℓ : Loc nD τ sig) → Buf (Elt Ideal) ℓ) (c : Dev nD) :
    res_main_v60 m' c = refTerm (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) := by
  unfold res_main_v60 refTerm; rfl

theorem ref_run (m' : (ℓ : Loc nD τ sig) → Buf (Elt Ideal) ℓ) (ρ' : Dev nD → PrngReg)
    (hsrc : ∀ c : Dev nD, ∀ e : Fin 400000, 0 ≤ ((m' ((c.tc : Thread nD τ).loc main_arg1)) (ix2 (0 : Fin 2) e)).toInt
      ∧ ((m' ((c.tc : Thread nD τ).loc main_arg1)) (ix2 (0 : Fin 2) e)).toInt < 100000) :
    θ_run (Cert.ReferenceIdeal.defs (F := Ideal)) (onTc (τ := τ) (main (F := Ideal))) ⟨m', fun _ => 0, ρ'⟩ fun r => ∀ c : Dev nD,
      r.2.mem ((c.tc : Thread nD τ).loc main_v60)
        = Cert.Spec.model (Cert.Spec.rowCol 0 (m' ((c.tc : Thread nD τ).loc main_arg1))) (Cert.Spec.rowCol 1 (m' ((c.tc : Thread nD τ).loc main_arg1)))
            (Cert.Spec.vecCol (m' ((c.tc : Thread nD τ).loc main_arg2))) (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10) :=
  (θ_run _ _ _).mono
    (fun _ h c => ⟨(h c).1.trans ((res_eq m' c).trans (result_eq _ _ _ _ _ _ _ _ _ _ _ (hsrc c))), (h c).2⟩)
    (Cert.ReferenceIdeal.Value.run (F := Ideal) m' ρ')

end Reference

end Cert.ReferenceIdeal.RefValue

end
-- ==== Proof.PreSrc.lean ====
import proofs.«423955_j37598143709627_1_alg».proof.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.PreSrc

open Idealize.ShloMosaic Idealize.ShloMosaic.ValueIdx Cert.Pre_finite_inputs

instance subsingleton_scalar_idx : Subsingleton S_.Idx := ⟨fun a b => funext fun d => d.elim0⟩

theorem row0_apply [Cert.Pre_finite_inputs.Facts] (a1 : IVec S2x400000 32) (e : Fin 400000) :
    shapeCast S400000 (extractStridedSlice S1x400000 ![0, 0] a1 Facts.slices_S2x400000_S1x400000_0_0)
        Facts.shapeCasts_S1x400000_S400000 (ix1 e)
      = a1 (ix2 (0 : Fin 2) e) := by
  refine (shapeCast_apply _ _ (ix1 e) (ix2 (0 : Fin 1) e) ?_).trans ?_
  · rw [Shape.rowMajor_val_two, Shape.rowMajor_val_one]
    show (0 : Nat) * _ + e.val = e.val
    omega
  · refine extractStridedSlice_apply _ _ _ _ _ (fun a => ?_)
    match a with
    | ⟨0, _⟩ => rfl
    | ⟨1, _⟩ => show e.val = 0 + e.val; omega

theorem bcast_const {t : Shape} {w : Nat} (hb : S_.BroadcastsInDim t (![] : Fin 0 → Fin t.rank)) (b : BitVec w) (j : t.Idx) :
    broadcastInDim t ![] hb (constantI S_ w b) j = b := rfl

theorem toInt_zero32 : (0#32 : BitVec 32).toInt = 0 := by decide
theorem toInt_100000 : (100000#32 : BitVec 32).toInt = 100000 := by decide

theorem src_in_range {F : FTy → Type} [FloatOps F] [Cert.Pre_finite_inputs.Facts]
    (a0 : FVec F S100000x128 .f32) (a1 : IVec S2x400000 32) (a2 : IVec S100000 32) (a3 : FVec F S128x256 .f32) (a4 : FVec F S256 .f32) (a5 : FVec F S128x256 .f32) (a6 : FVec F S256x256 .f32) (a7 : FVec F S256 .f32) (a8 : FVec F S256x256 .f32) (a9 : FVec F S256x12 .f32) (a10 : FVec F S12 .f32)
    (h : Cert.Pre_finite_inputs.fn (F := F) a0 a1 a2 a3 a4 a5 a6 a7 a8 a9 a10 = fun _ => 1#1) :
    ∀ e : Fin 400000, 0 ≤ (a1 (ix2 (0 : Fin 2) e)).toInt ∧ (a1 (ix2 (0 : Fin 2) e)).toInt < 100000 := by
  intro e
  have h0 := congrFun h ix0

  unfold Cert.Pre_finite_inputs.fn at h0
  dsimp only at h0
  unfold Cert.Pre_finite_inputs.fn_part1 at h0
  dsimp only at h0
  unfold Cert.Pre_finite_inputs.fn_part2 at h0
  dsimp only at h0
  unfold Cert.Pre_finite_inputs.fn_part3 at h0
  dsimp only at h0

  have hred := (IntOp.andi_eq_one.1 h0).2

  have he := Host.reduce_andi_all _ _ _ _ _ hred (ix1 e)

  obtain ⟨hge, hlt⟩ := IntOp.andi_eq_one.1 he
  have hge' := IntOp.cmpi_sge.1 hge
  have hlt' := IntOp.cmpi_slt.1 hlt
  rw [bcast_const, row0_apply] at hge' hlt'
  rw [toInt_zero32] at hge'
  rw [toInt_100000] at hlt'
  exact ⟨hge', hlt'⟩

end Cert.PreSrc

end
-- ==== Proof.lean ====
/- Both programs compute one function of their arguments (`Cert.Spec.model`): a product with a 0/1 selection matrix is the
   sum of the selected rows over the extended reals, once every source index names a row. -/
import proofs.«423955_j37598143709627_1_alg».proof.Defs
import proofs.«423955_j37598143709627_1_alg».proof.Proof.Gen.Kernel
import proofs.«423955_j37598143709627_1_alg».proof.Proof.Gen.KernelIdeal
import proofs.«423955_j37598143709627_1_alg».proof.Proof.Gen.ReferenceIdeal
import proofs.«423955_j37598143709627_1_alg».proof.Proof.Gen.Pre_finite_inputs
import proofs.«423955_j37598143709627_1_alg».proof.Proof.Gen.ReferenceIdeal.Run
import proofs.«423955_j37598143709627_1_alg».proof.Proof.SameProgram
import proofs.«423955_j37598143709627_1_alg».proof.Proof.KI.Run
import proofs.«423955_j37598143709627_1_alg».proof.Proof.KI.Chain
import proofs.«423955_j37598143709627_1_alg».proof.Proof.RefValue
import proofs.«423955_j37598143709627_1_alg».proof.Proof.PreSrc
import Idealize.ShloMosaic.Adequacy
import Idealize.ShloMosaic.Init

noncomputable section

namespace Cert.Proof

open Idealize.ShloMosaic Idealize.ShloMosaic.TcCoe Idealize.SL.Sem
open Cert.KernelIdeal Cert.KernelIdeal.Hand

section
variable {F : FTy → Type} [FloatOps F] [Facts]
  (m : (ℓ : Loc nD τ sig) → Buf (Elt F) ℓ) (ρ : Dev nD → PrngReg)

/-- No item writes an argument, so a final memory that holds the run's last valuation holds the arguments as launched. -/
theorem kept (r : PUnit × MemSt nD τ sig (Elt F))
    (h : ∀ c : Dev nD, ∀ b ∈ Pipeline.ucRefs τ sig, r.2.mem (((c : Thread nD τ)).1, b) = W11 m ρ c b)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(h c _ (mem_uc main_arg0 (by decide))).trans (W11_kept m ρ c main_arg0 (by decide)),
   (h c _ (mem_uc main_arg1 (by decide))).trans (W11_kept m ρ c main_arg1 (by decide)),
   (h c _ (mem_uc main_arg2 (by decide))).trans (W11_kept m ρ c main_arg2 (by decide)),
   (h c _ (mem_uc main_arg3 (by decide))).trans (W11_kept m ρ c main_arg3 (by decide)),
   (h c _ (mem_uc main_arg4 (by decide))).trans (W11_kept m ρ c main_arg4 (by decide)),
   (h c _ (mem_uc main_arg5 (by decide))).trans (W11_kept m ρ c main_arg5 (by decide)),
   (h c _ (mem_uc main_arg6 (by decide))).trans (W11_kept m ρ c main_arg6 (by decide)),
   (h c _ (mem_uc main_arg7 (by decide))).trans (W11_kept m ρ c main_arg7 (by decide)),
   (h c _ (mem_uc main_arg8 (by decide))).trans (W11_kept m ρ c main_arg8 (by decide)),
   (h c _ (mem_uc main_arg9 (by decide))).trans (W11_kept m ρ c main_arg9 (by decide)),
   (h c _ (mem_uc main_arg10 (by decide))).trans (W11_kept m ρ c main_arg10 (by decide))⟩
end

theorem frame_ki [Cert.KernelIdeal.Facts] [Cert.Pre_finite_inputs.Facts] : Cert.frame_KernelIdeal := fun m ρ _ =>
  (θ_run (Cert.KernelIdeal.defs (F := Ideal)) _ _).mono (fun r h c => kept m ρ r h c) (run (F := Ideal) m ρ)

set_option maxHeartbeats 1500000 in
/-- The word-level program is the idealized program's own text, so its frame is the same theorem at the other float instance. -/
theorem frame_k [Cert.Kernel.Facts] [Cert.Pre_finite_inputs.Facts] : Cert.frame_Kernel := fun m ρ _ => by
  haveI : Cert.KernelIdeal.Facts := Cert.KernelIdeal.Gen.facts
  rw [Cert.SameProgram.defs_eq, Cert.SameProgram.main_eq]
  exact (θ_run (Cert.KernelIdeal.defs (F := Bits)) _ _).mono (fun r h c => kept m ρ r h c) (run (F := Bits) m ρ)

theorem frame_ri [Cert.ReferenceIdeal.Facts] [Cert.Pre_finite_inputs.Facts] : Cert.frame_ReferenceIdeal := fun m ρ _ =>
  (θ_run (Cert.ReferenceIdeal.defs (F := Ideal)) _ _).mono (fun _ h c => (h c).2) (Cert.ReferenceIdeal.Value.run (F := Ideal) m ρ)

/-- Both idealized programs end with `Cert.Spec.model` of the arguments in their result; the precondition puts every source index in range. -/
theorem algebraic [Cert.KernelIdeal.Facts] [Cert.ReferenceIdeal.Facts] [Cert.Pre_finite_inputs.Facts] :
    Cert.algebraic_KernelIdeal_ReferenceIdeal := by
  intro m ρ m' ρ' hpre hagree
  have hsrc : ∀ c : Dev Cert.ReferenceIdeal.nD, ∀ e : Fin 400000,
      0 ≤ ((m' ((c.tc : Thread Cert.ReferenceIdeal.nD Cert.ReferenceIdeal.τ).loc Cert.ReferenceIdeal.main_arg1)) (ValueIdx.ix2 (0 : Fin 2) e)).toInt
      ∧ ((m' ((c.tc : Thread Cert.ReferenceIdeal.nD Cert.ReferenceIdeal.τ).loc Cert.ReferenceIdeal.main_arg1)) (ValueIdx.ix2 (0 : Fin 2) e)).toInt < 100000 := by
    intro c
    rw [(hagree c).2.1]
    exact Cert.PreSrc.src_in_range _ _ _ _ _ _ _ _ _ _ _ (hpre c)
  refine ⟨fun c => Cert.Spec.model
      (Cert.Spec.rowCol 0 (m ((c.tc : Thread Cert.KernelIdeal.nD Cert.KernelIdeal.τ).loc Cert.KernelIdeal.main_arg1)))
      (Cert.Spec.rowCol 1 (m ((c.tc : Thread Cert.KernelIdeal.nD Cert.KernelIdeal.τ).loc Cert.KernelIdeal.main_arg1)))
      (Cert.Spec.vecCol (m ((c.tc : Thread Cert.KernelIdeal.nD Cert.KernelIdeal.τ).loc Cert.KernelIdeal.main_arg2)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    (θ_run (Cert.KernelIdeal.defs (F := Ideal)) _ _).mono (fun r h c =>
      ⟨(h c _ (mem_uc main_v38 (by decide))).trans (result_value m ρ c), kept m ρ r h c⟩) (run (F := Ideal) m ρ),
    (θ_run (Cert.ReferenceIdeal.defs (F := Ideal)) _ _).mono (fun _ h c => ⟨(h c).1.trans ?_, (h c).2⟩)
      (Cert.ReferenceIdeal.RefValue.ref_run m' ρ' hsrc)⟩
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
